-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S2x800000 : Shape := ⟨2, ![2, 800000]⟩
abbrev S50000 : Shape := ⟨1, ![50000]⟩
abbrev S128x300 : Shape := ⟨2, ![128, 300]⟩
abbrev S128 : Shape := ⟨1, ![128]⟩
abbrev S128x128 : Shape := ⟨2, ![128, 128]⟩
abbrev S1x128 : Shape := ⟨2, ![1, 128]⟩
abbrev S1 : Shape := ⟨1, ![1]⟩
abbrev S64x128 : Shape := ⟨2, ![64, 128]⟩
abbrev S64 : Shape := ⟨1, ![64]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S128x300 : S_.BroadcastsInDim S128x300 (![] : Fin 0 → Fin S128x300.rank)
  reducesTo_S128x300_S_d0_1 : S128x300.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64x128 .f32) (main_arg14 : FVec F S64 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S128 .f32) (main_arg10 : FVec F S128x128 .f32) (main_arg11 : FVec F S1x128 .f32) (main_arg12 : FVec F S1 .f32) (main_arg13 : FVec F S64x128 .f32) (main_arg14 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S1x128 .f32 := Host.absf main_arg11
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) (main_arg13 : FVec F S64x128 .f32) (main_arg14 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x300 .f32) (main_arg1 : IVec S2x800000 32) (main_arg2 : IVec S50000 32) (main_arg3 : FVec F S128x300 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) (main_arg13 : FVec F S64x128 .f32) (main_arg14 : FVec F S64 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S128x300 .f32 := Host.absf main_arg3
  let main_cst_0 : FVec F S_ .f32 := constant S_ .f32 0x7F800000#32
  let main_v5 : FVec F S128x300 .f32 := broadcastInDim S128x300 ![] bcast_S_S128x300 main_cst_0
  let main_v6 : IVec S128x300 1 := cmpf .olt main_v4 main_v5
  let main_c_1 : IVec S_ 1 := constantI S_ 1 1#1
  let main_v7 : IVec S_ 1 := (fun x v => Host.reduce IntOp.andi x v reducesTo_S128x300_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x300 : Shape := ⟨2, ![50000, 300]⟩
abbrev S2x800000 : Shape := ⟨2, ![2, 800000]⟩
abbrev S50000 : Shape := ⟨1, ![50000]⟩
abbrev S128x300 : Shape := ⟨2, ![128, 300]⟩
abbrev S128 : Shape := ⟨1, ![128]⟩
abbrev S128x128 : Shape := ⟨2, ![128, 128]⟩
abbrev S1x128 : Shape := ⟨2, ![1, 128]⟩
abbrev S1 : Shape := ⟨1, ![1]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S50000x128 : Shape := ⟨2, ![50000, 128]⟩
abbrev S5000x300 : Shape := ⟨2, ![5000, 300]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S5000x1 : Shape := ⟨2, ![5000, 1]⟩
abbrev S128x1 : Shape := ⟨2, ![128, 1]⟩
abbrev S1x1 : Shape := ⟨2, ![1, 1]⟩
abbrev S1x64 : Shape := ⟨2, ![1, 64]⟩
abbrev S8x64 : Shape := ⟨2, ![8, 64]⟩
abbrev S8x128 : Shape := ⟨2, ![8, 128]⟩
abbrev S5000x8 : Shape := ⟨2, ![5000, 8]⟩

abbrev nBuf : Space → Nat
  | .hbm => 81
  | .vmem => 38
  | .smem => 0
  | _ => 0

abbrev bufTy : (tb : Table) → Fin (tcTables nBuf tb) → BufTy
  | .hbm, ⟨0, _⟩ => ⟨S50000x300, .f32⟩
  | .hbm, ⟨1, _⟩ => ⟨S2x800000, .i32⟩
  | .hbm, ⟨2, _⟩ => ⟨S50000, .i32⟩
  | .hbm, ⟨3, _⟩ => ⟨S128x300, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S1, .f32⟩
  | .hbm, ⟨13, _⟩ => ⟨S64x128, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S1x128, .f32⟩
  | .hbm, ⟨20, _⟩ => ⟨S50000x128, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x1, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x1, .f32⟩
  | .hbm, ⟨57, _⟩ => ⟨S1x128, .f32⟩
  | .hbm, ⟨58, _⟩ => ⟨S50000x128, .f32⟩
  | .hbm, ⟨59, _⟩ => ⟨S128x1, .f32⟩
  | .hbm, ⟨60, _⟩ => ⟨S50000x1, .f32⟩
  | .hbm, ⟨61, _⟩ => ⟨S1x1, .f32⟩
  | .hbm, ⟨62, _⟩ => ⟨S50000x1, .f32⟩
  | .hbm, ⟨63, _⟩ => ⟨S50000x1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S1, .f32⟩
  | .hbm, ⟨69, _⟩ => ⟨S1x1, .f32⟩
  | .hbm, ⟨70, _⟩ => ⟨S50000x1, .f32⟩
  | .hbm, ⟨71, _⟩ => ⟨S50000x1, .f32⟩
  | .hbm, ⟨72, _⟩ => ⟨S50000x1, .f32⟩
  | .hbm, ⟨73, _⟩ => ⟨S_, .f32⟩
  | .hbm, ⟨74, _⟩ => ⟨S1, .f32⟩
  | .hbm, ⟨75, _⟩ => ⟨S1x1, .f32⟩
  | .hbm, ⟨76, _⟩ => ⟨S50000x1, .f32⟩
  | .hbm, ⟨77, _⟩ => ⟨S50000x1, .f32⟩
  | .hbm, ⟨78, _⟩ => ⟨S50000x1, .i32⟩
  | .hbm, ⟨79, _⟩ => ⟨S1x64, .f32⟩
  | .hbm, ⟨80, _⟩ => ⟨S8x64, .f32⟩
  | .local _ .vmem, ⟨0, _⟩ => ⟨S5000x300, .f32⟩
  | .local _ .vmem, ⟨1, _⟩ => ⟨S5000x300, .f32⟩
  | .local _ .vmem, ⟨2, _⟩ => ⟨S128x300, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S5000x1, .i32⟩
  | .local _ .vmem, ⟨33, _⟩ => ⟨S5000x1, .i32⟩
  | .local _ .vmem, ⟨34, _⟩ => ⟨S64x128, .f32⟩
  | .local _ .vmem, ⟨35, _⟩ => ⟨S1x64, .f32⟩
  | .local _ .vmem, ⟨36, _⟩ => ⟨S8x64, .f32⟩
  | .local _ .vmem, ⟨37, _⟩ => ⟨S8x128, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_10 : BitVec 32 := 0#32
  let v26 : BitVec 1 := Scalar.cmpi .ne v25 c0_i32_10
  v26

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S8x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x300_S5000x300_0_0 : ∀ a, (![0, 0] : Fin 2 → Nat) a + S5000x300.size a ≤ S5000x300.size a
  h_S5000x300 : 0 < S5000x300.numel
  bitsLt_bf16_f32 : FTy.bits .bf16 < FTy.bits .f32
  inb_S128x300_S128x300_0_0 : ∀ a, (![0, 0] : Fin 2 → Nat) a + S128x300.size a ≤ S128x300.size a
  h_S128x300 : 0 < S128x300.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  bcast_S_S1 : S_.BroadcastsInDim S1 (![] : Fin 0 → Fin S1.rank)
  shapeCasts_S64_S1x64 : S64.ShapeCasts S1x64
  inb_S8x128_S8x128_0_0 : ∀ a, (![0, 0] : Fin 2 → Nat) a + S8x128.size a ≤ S8x128.size a
  h_S8x128 : 0 < S8x128.numel
  shapeCasts_S8x128_S8x128 : S8x128.ShapeCasts S8x128
  iota_S5000x8_d1_w32 : S5000x8.Iotas .tc 32 [1]
  broadcasts_S5000x1_S5000x8 : S5000x1.Broadcasts S5000x8
  natLt_1_32 : 1 < 32
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8x64 : S1x64.Broadcasts S8x64
  inb_S8x64_S8x64_0_0 : ∀ a, (![0, 0] : Fin 2 → Nat) a + S8x64.size a ≤ S8x64.size a
  h_S8x64 : 0 < S8x64.numel
  dot_S5000x300_S128x300_S5000x128_1_1_0_0_n_n_wf : DotDims.WF S5000x300 S128x300 S5000x128 [1] [1] [0] [0] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_1_0_0_n_n_wf : DotDims.WF S5000x128 S128x128 S5000x128 [1] [1] [0] [0] [] []
  dot_S50000x128_S128x1_S50000x1_1_0_0_1_n_n_wf : DotDims.WF S50000x128 S128x1 S50000x1 [1] [0] [0] [1] [] []
  dot_S5000x8_S5000x128_S8x128_0_0_1_1_n_n_wf : DotDims.WF S5000x8 S5000x128 S8x128 [0] [0] [1] [1] [] []
  dot_S8x128_S64x128_S8x64_1_1_0_0_n_n_wf : DotDims.WF S8x128 S64x128 S8x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S50000x300.size a
  hwx0_0 : ∀ i : grid0.Coords, EltTy.bits .f32 = 32 ∨ (Rect.block (s := S50000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x300.size a ≤ S128x300.size a
  hwx0_1 : ∀ i : grid0.Coords, EltTy.bits .f32 = 32 ∨ (Rect.block (s := S128x300) S128x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .i32 = 32 ∨ (Rect.block (s := S50000x1) S5000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S8x64.size a ≤ S8x64.size a
  hwx3_5 : ∀ i : grid3.Coords, EltTy.bits .f32 = 32 ∨ (Rect.block (s := S8x64) S8x64.size (cc3_transform_5 i) (hinb3_5 i)).WholeWords (EltTy.packing .f32)

variable [Facts₀]

def dot_S5000x300_S128x300_S5000x128_1_1_0_0_n_n : DotDims S5000x300 S128x300 S5000x128 where
  lhsContracting := [1]
  rhsContracting := [1]
  lhsNonContracting := [0]
  rhsNonContracting := [0]
  lhsBatch := []
  rhsBatch := []
  wf := dot_S5000x300_S128x300_S5000x128_1_1_0_0_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S5000x8_S5000x128_S8x128_0_0_1_1_n_n : DotDims S5000x8 S5000x128 S8x128 where
  lhsContracting := [0]
  rhsContracting := [0]
  lhsNonContracting := [1]
  rhsNonContracting := [1]
  lhsBatch := []
  rhsBatch := []
  wf := dot_S5000x8_S5000x128_S8x128_0_0_1_1_n_n_wf
def dot_S8x128_S64x128_S8x64_1_1_0_0_n_n : DotDims S8x128 S64x128 S8x64 where
  lhsContracting := [1]
  rhsContracting := [1]
  lhsNonContracting := [0]
  rhsNonContracting := [0]
  lhsBatch := []
  rhsBatch := []
  wf := dot_S8x128_S64x128_S8x64_1_1_0_0_n_n_wf

abbrev win0_0 : Pipeline.Window sig grid0 :=
  Pipeline.Window.ofSpec (Memref.whole main_arg0) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v35) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S8x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S50000x300 : Shape := ⟨2, ![50000, 300]⟩
abbrev S2x800000 : Shape := ⟨2, ![2, 800000]⟩
abbrev S50000 : Shape := ⟨1, ![50000]⟩
abbrev S128x300 : Shape := ⟨2, ![128, 300]⟩
abbrev S128 : Shape := ⟨1, ![128]⟩
abbrev S128x128 : Shape := ⟨2, ![128, 128]⟩
abbrev S1x128 : Shape := ⟨2, ![1, 128]⟩
abbrev S1 : Shape := ⟨1, ![1]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S300x128 : Shape := ⟨2, ![300, 128]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S128x1 : Shape := ⟨2, ![128, 1]⟩
abbrev S1x1 : Shape := ⟨2, ![1, 1]⟩
abbrev S8x128 : Shape := ⟨2, ![8, 128]⟩
abbrev S128x64 : Shape := ⟨2, ![128, 64]⟩
abbrev S8x64 : Shape := ⟨2, ![8, 64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S50000x300, .f32⟩
  | .hbm, ⟨1, _⟩ => ⟨S2x800000, .i32⟩
  | .hbm, ⟨2, _⟩ => ⟨S50000, .i32⟩
  | .hbm, ⟨3, _⟩ => ⟨S128x300, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S1, .f32⟩
  | .hbm, ⟨13, _⟩ => ⟨S64x128, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S300x128, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S_, .f32⟩
  | .hbm, ⟨38, _⟩ => ⟨S800000, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S128x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S128x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S_, .f32⟩
  | .hbm, ⟨74, _⟩ => ⟨S800000, .f32⟩
  | .hbm, ⟨75, _⟩ => ⟨S_, .f32⟩
  | .hbm, ⟨76, _⟩ => ⟨S50000, .f32⟩
  | .hbm, ⟨77, _⟩ => ⟨S800000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S128x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S128x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S128x1, .f32⟩
  | .hbm, ⟨97, _⟩ => ⟨S50000x1, .f32⟩
  | .hbm, ⟨98, _⟩ => ⟨S1x1, .f32⟩
  | .hbm, ⟨99, _⟩ => ⟨S50000x1, .f32⟩
  | .hbm, ⟨100, _⟩ => ⟨S50000x1, .f32⟩
  | .hbm, ⟨101, _⟩ => ⟨S_, .f32⟩
  | .hbm, ⟨102, _⟩ => ⟨S1, .f32⟩
  | .hbm, ⟨103, _⟩ => ⟨S_, .f32⟩
  | .hbm, ⟨104, _⟩ => ⟨S1, .f32⟩
  | .hbm, ⟨105, _⟩ => ⟨S1, .f32⟩
  | .hbm, ⟨106, _⟩ => ⟨S1x1, .f32⟩
  | .hbm, ⟨107, _⟩ => ⟨S50000x1, .f32⟩
  | .hbm, ⟨108, _⟩ => ⟨S50000x1, .f32⟩
  | .hbm, ⟨109, _⟩ => ⟨S50000x1, .f32⟩
  | .hbm, ⟨110, _⟩ => ⟨S_, .f32⟩
  | .hbm, ⟨111, _⟩ => ⟨S1, .f32⟩
  | .hbm, ⟨112, _⟩ => ⟨S1x1, .f32⟩
  | .hbm, ⟨113, _⟩ => ⟨S50000x1, .f32⟩
  | .hbm, ⟨114, _⟩ => ⟨S50000x1, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S8x128, .f32⟩
  | .hbm, ⟨119, _⟩ => ⟨S50000x1, .i32⟩
  | .hbm, ⟨120, _⟩ => ⟨S8x128, .f32⟩
  | .hbm, ⟨121, _⟩ => ⟨S128x64, .f32⟩
  | .hbm, ⟨122, _⟩ => ⟨S8x64, .f32⟩
  | .hbm, ⟨123, _⟩ => ⟨S1x64, .f32⟩
  | .hbm, ⟨124, _⟩ => ⟨S8x64, .f32⟩
  | .hbm, ⟨125, _⟩ => ⟨S8x64, .f32⟩
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call0_cst : Ref sig .tc := ⟨.hbm, 57, rfl⟩
abbrev main_call0_v0 : Ref sig .tc := ⟨.hbm, 58, rfl⟩
abbrev main_v36 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call1_cst : Ref sig .tc := ⟨.hbm, 93, rfl⟩
abbrev main_call1_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_10 : Ref sig .tc := ⟨.hbm, 101, rfl⟩
abbrev main_v70 : Ref sig .tc := ⟨.hbm, 102, rfl⟩
abbrev main_cst_11 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_12 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_13 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x300_S300x128_1_0 : S128x300.Transposes [1, 0] S300x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  bcast_S_S1 : S_.BroadcastsInDim S1 (![] : Fin 0 → Fin S1.rank)
  bcast_S_S8x128 : S_.BroadcastsInDim S8x128 (![] : Fin 0 → Fin S8x128.rank)
  transposes_S64x128_S128x64_1_0 : S64x128.Transposes [1, 0] S128x64
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  dot_S50000x300_S300x128_S50000x128_1_0_0_1_n_n_wf : DotDims.WF S50000x300 S300x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []
  scatter_S8x128_S50000x1_S50000x128_1_0_0_1_wf : ScatterDims.WF S8x128 S50000x1 S50000x128 [1] [0] [0] 1
  dot_S8x128_S128x64_S8x64_1_0_0_1_n_n_wf : DotDims.WF S8x128 S128x64 S8x64 [1] [0] [0] [1] [] []

variable [Facts₀]

def dot_S50000x300_S300x128_S50000x128_1_0_0_1_n_n : DotDims S50000x300 S300x128 S50000x128 where
  lhsContracting := [1]
  rhsContracting := [0]
  lhsNonContracting := [0]
  rhsNonContracting := [1]
  lhsBatch := []
  rhsBatch := []
  wf := dot_S50000x300_S300x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S8x128_S50000x1_S50000x128_1_0_0_1 : ScatterDims S8x128 S50000x1 S50000x128 where
  updateWindowDims := [1]
  insertedWindowDims := [0]
  scatterDimsToOperandDims := [0]
  indexVectorDim := 1
  wf := scatter_S8x128_S50000x1_S50000x128_1_0_0_1_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf

class Facts : Prop extends Facts₀ where

variable [Facts]
-- ==== Proof.KernelReg0.lean ====
import proofs.«416290_j3246995276182_1_alg».proof.Proof.KernelLaunchP
import proofs.«416290_j3246995276182_1_alg».proof.Proof.Gen.Kernel.Skeleton
import proofs.«416290_j3246995276182_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x300 := Rect.unit (s := S5000x300) ![0, 0] S5000x300.size inb_S5000x300_S5000x300_0_0
abbrev r0_w : Rect S128x300 := Rect.unit (s := S128x300) ![0, 0] S128x300.size inb_S128x300_S128x300_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

/-- The output block after the body: its one store, over the whole block, of the layer's value on the loaded blocks. -/
def out0_3 (x0 : Vec F S5000x300 .f32) (x1 : Vec F S128x300 .f32) (x2 : Vec F S1x128 .f32) : Vec F S5000x128 .f32 :=
  View.canon [⟨r0_o, k0_pay1 (View.ld x0 r0_x) (View.ld x1 r0_w) (View.ld x2 r0_b)⟩]

theorem cover0_3 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 1000000 in
/-- On whole buffers the body leaves the inputs as they were and the output at `out0_3` of them. -/
theorem sound_kernel0 (c : Dev nD) (E : Set ℕ) (i : grid0.Coords) (arg1 : Memref sig .tc .vmem S5000x300 .f32) (harg1 : arg1.IsWhole) (arg2 : Memref sig .tc .vmem S128x300 .f32) (harg2 : arg2.IsWhole) (arg3 : Memref sig .tc .vmem S1x128 .f32) (harg3 : arg3.IsWhole) (arg4 : Memref sig .tc .vmem S5000x128 .f32) (harg4 : arg4.IsWhole)
    (x0 : Vec F S5000x300 .f32) (x1 : Vec F S128x300 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's triple at every grid point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KernelReg1.lean ====
import proofs.«416290_j3246995276182_1_alg».proof.Proof.KernelLaunchP
import proofs.«416290_j3246995276182_1_alg».proof.Proof.Gen.Kernel.Skeleton
import proofs.«416290_j3246995276182_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_f : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

/-- The output block after the body: its one store, over the whole block, of the layer's value on the loaded blocks. -/
def out1_6 (x0 : Vec F S5000x128 .f32) (x1 : Vec F S5000x1 .f32) (x2 : Vec F S5000x128 .f32) (x3 : Vec F S128x128 .f32) (x4 : Vec F S1x128 .f32) (x5 : Vec F S128x128 .f32) : Vec F S5000x128 .f32 :=
  View.canon [⟨r1_f, k1_pay1 (View.ld x1 r1_d) (View.ld x0 r1_f) (View.ld x2 r1_f) (View.ld x3 r1_w) (View.ld x5 r1_w) (View.ld x4 r1_b)⟩]

theorem cover1_6 (p0 : Vec F S5000x128 .f32) (y : S5000x128.Idx) :
    ∃ pc ∈ ([⟨r1_f, p0⟩] : List (View.Piece (Elt F) S5000x128 .f32)), y ∈ pc.1.set :=
  View.cover_of_tiled [⟨r1_f, p0⟩] S5000x128.size (by rfl) y

set_option maxHeartbeats 1000000 in
/-- On whole buffers the body leaves the inputs as they were and the output at `out1_6` of them. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x128 .f32) (harg7 : arg7.IsWhole)
    (x0 : Vec F S5000x128 .f32) (x1 : Vec F S5000x1 .f32) (x2 : Vec F S5000x128 .f32) (x3 : Vec F S128x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__sage_kernel i arg1 harg1 arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's triple at every grid point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KernelReg2.lean ====
import proofs.«416290_j3246995276182_1_alg».proof.Proof.KernelLaunchP
import proofs.«416290_j3246995276182_1_alg».proof.Proof.Gen.Kernel.Skeleton
import proofs.«416290_j3246995276182_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_f : Rect S5000x128 := Rect.unit (s := S5000x128) ![0, 0] S5000x128.size inb_S5000x128_S5000x128_0_0
abbrev r2_d : Rect S5000x1 := Rect.unit (s := S5000x1) ![0, 0] S5000x1.size inb_S5000x1_S5000x1_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

/-- The output block after the body: its one store, over the whole block, of the layer's value on the loaded blocks. -/
def out2_6 (x0 : Vec F S5000x128 .f32) (x1 : Vec F S5000x1 .f32) (x2 : Vec F S5000x128 .f32) (x3 : Vec F S128x128 .f32) (x4 : Vec F S1x128 .f32) (x5 : Vec F S128x128 .f32) : Vec F S5000x128 .f32 :=
  View.canon [⟨r2_f, k2_pay1 (View.ld x1 r2_d) (View.ld x0 r2_f) (View.ld x2 r2_f) (View.ld x3 r2_w) (View.ld x5 r2_w) (View.ld x4 r2_b)⟩]

theorem cover2_6 (p0 : Vec F S5000x128 .f32) (y : S5000x128.Idx) :
    ∃ pc ∈ ([⟨r2_f, p0⟩] : List (View.Piece (Elt F) S5000x128 .f32)), y ∈ pc.1.set :=
  View.cover_of_tiled [⟨r2_f, p0⟩] S5000x128.size (by rfl) y

set_option maxHeartbeats 1000000 in
/-- On whole buffers the body leaves the inputs as they were and the output at `out2_6` of them. -/
theorem sound_kernel2 (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x128 .f32) (harg7 : arg7.IsWhole)
    (x0 : Vec F S5000x128 .f32) (x1 : Vec F S5000x1 .f32) (x2 : Vec F S5000x128 .f32) (x3 : Vec F S128x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__sage_kernel i arg1 harg1 arg2 harg2 arg3 harg3 arg4 harg4 arg5 harg5 arg6 harg6 arg7 harg7) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's triple at every grid point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KernelReg3.lean ====
import proofs.«416290_j3246995276182_1_alg».proof.Proof.KernelLaunchP
import proofs.«416290_j3246995276182_1_alg».proof.Proof.Gen.Kernel.Skeleton
import proofs.«416290_j3246995276182_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
/-- The first conditional is taken at the first point only. -/
theorem hcond3_0 : ∀ t : Fin cfg3.N, cond3_0 (grid3.coords t) ↔ t.val % 10 = 0 :=
  (by decide +kernel : ∀ t : Fin grid3.N, cond3_0 (grid3.coords t) ↔ t.val % 10 = 0)

abbrev cond3_1 (i : grid3.Coords) : Prop := k3_cond2 i = 1#1
/-- The second conditional is taken at the last point only. -/
theorem hcond3_1 : ∀ t : Fin cfg3.N, cond3_1 (grid3.coords t) ↔ t.val % 10 = 9 :=
  (by decide +kernel : ∀ t : Fin grid3.N, cond3_1 (grid3.coords t) ↔ t.val % 10 = 9)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5_A : ∀ t : Fin cfg3.N, cond3_0 (grid3.coords t) → ¬cond3_1 (grid3.coords t) → cfg3.idle 5 (grid3.coords t) = true := by decide +kernel
theorem noFlush3_5_A : ∀ t : Fin cfg3.N, cond3_0 (grid3.coords t) → ¬cond3_1 (grid3.coords t) → (cfg3.win 5).flush t = false := by decide +kernel
theorem idleAt3_5_B : ∀ t : Fin cfg3.N, ¬cond3_0 (grid3.coords t) → ¬cond3_1 (grid3.coords t) → cfg3.idle 5 (grid3.coords t) = true := by decide +kernel
theorem noFlush3_5_B : ∀ t : Fin cfg3.N, ¬cond3_0 (grid3.coords t) → ¬cond3_1 (grid3.coords t) → (cfg3.win 5).flush t = false := by decide +kernel
theorem liveAt3_5_C : ∀ t : Fin cfg3.N, ¬cond3_0 (grid3.coords t) → cond3_1 (grid3.coords t) → cfg3.idle 5 (grid3.coords t) = false := by decide +kernel

abbrev VO3_5 : View sig .tc .vmem S8x64 .f32 := (Memref.whole cc3_stg5_0 : Memref sig .tc .vmem S8x64 .f32).view
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S8x64 .f32 := win3_5.stage (cfg3.slots t 5)
abbrev hs3_5 (t : Fin cfg3.N) : (ms3_5 t).IsWhole := hstage3_5 ((cfg3.slots t 5).cast nbuf3_5)
abbrev scM3_0 : Memref sig .tc .vmem S8x128 .f32 := Memref.whole cc3_scratch0
abbrev VS3_0 : View sig .tc .vmem S8x128 .f32 := scM3_0.view

theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

section Cases
variable (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8x64 .f32) (harg6 : arg6.IsWhole) (arg7 : Memref sig .tc .vmem S8x128 .f32) (harg7 : arg7.IsWhole)

section CaseA
variable (hc0 : cond3_0 i) (hc1 : ¬cond3_1 i) (x0 : Vec F S5000x128 .f32) (x1 : Vec F S5000x1 .f32) (x2 : Vec F S5000x1 .i32) (x3 : Vec F S64x128 .f32) (x4 : Vec F S1x64 .f32)
include hc0 hc1

set_option maxHeartbeats 1000000 in
/-- The first point (first conditional taken, second not): the accumulator comes in at anything and is overwritten before it is read. -/
noncomputable def kernelRun3_A :
    Σ' (L5 : List (View.Piece (Elt F) S8x64 .f32)), { LS0 : List (View.Piece (Elt F) S8x128 .f32) //
      ∀ (xi5 : Vec F S8x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨[], ?_, fun xi5 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

def out3_A_5 : Vec F S8x64 .f32 :=
  VO3_5.read (Elt F) (VO3_5.writes (Elt F) VO3_5.junk (kernelRun3_A c i arg1 harg1 arg2 harg2 arg3 harg3 arg4 harg4 arg5 harg5 arg6 harg6 arg7 harg7 hc0 hc1 x0 x1 x2 x3 x4).1)

theorem scover3_A_0 (y : S8x128.Idx) :
    ∃ pc ∈ (kernelRun3_A c i arg1 harg1 arg2 harg2 arg3 harg3 arg4 harg4 arg5 harg5 arg6 harg6 arg7 harg7 hc0 hc1 x0 x1 x2 x3 x4).2.1, y ∈ pc.1.set :=
  View.cover_of_tiledL (kernelRun3_A c i arg1 harg1 arg2 harg2 arg3 harg3 arg4 harg4 arg5 harg5 arg6 harg6 arg7 harg7 hc0 hc1 x0 x1 x2 x3 x4).2.1 S8x128.size (by sl_kernel_rfl) y

def sout3_A_0 : Vec F S8x128 .f32 :=
  VS3_0.read (Elt F) (VS3_0.writes (Elt F) VS3_0.junk (kernelRun3_A c i arg1 harg1 arg2 harg2 arg3 harg3 arg4 harg4 arg5 harg5 arg6 harg6 arg7 harg7 hc0 hc1 x0 x1 x2 x3 x4).2.1)

end CaseA

section CaseB
variable (hc0 : ¬cond3_0 i) (hc1 : ¬cond3_1 i) (x0 : Vec F S5000x128 .f32) (x1 : Vec F S5000x1 .f32) (x2 : Vec F S5000x1 .i32) (x3 : Vec F S64x128 .f32) (x4 : Vec F S1x64 .f32) (xs0 : Vec F S8x128 .f32)
include hc0 hc1

set_option maxHeartbeats 1000000 in
/-- A middle point (neither taken): the accumulator comes in at what the point before left. -/
noncomputable def kernelRun3_B :
    Σ' (L5 : List (View.Piece (Elt F) S8x64 .f32)), { LS0 : List (View.Piece (Elt F) S8x128 .f32) //
      ∀ (xi5 : Vec F S8x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨[], ?_, fun xi5 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

def out3_B_5 : Vec F S8x64 .f32 :=
  VO3_5.read (Elt F) (VO3_5.writes (Elt F) VO3_5.junk (kernelRun3_B c i arg1 harg1 arg2 harg2 arg3 harg3 arg4 harg4 arg5 harg5 arg6 harg6 arg7 harg7 hc0 hc1 x0 x1 x2 x3 x4 xs0).1)

theorem scover3_B_0 (y : S8x128.Idx) :
    ∃ pc ∈ (kernelRun3_B c i arg1 harg1 arg2 harg2 arg3 harg3 arg4 harg4 arg5 harg5 arg6 harg6 arg7 harg7 hc0 hc1 x0 x1 x2 x3 x4 xs0).2.1, y ∈ pc.1.set :=
  View.cover_of_tiledL (kernelRun3_B c i arg1 harg1 arg2 harg2 arg3 harg3 arg4 harg4 arg5 harg5 arg6 harg6 arg7 harg7 hc0 hc1 x0 x1 x2 x3 x4 xs0).2.1 S8x128.size (by sl_kernel_rfl) y

def sout3_B_0 : Vec F S8x128 .f32 :=
  VS3_0.read (Elt F) (VS3_0.writes (Elt F) VS3_0.junk (kernelRun3_B c i arg1 harg1 arg2 harg2 arg3 harg3 arg4 harg4 arg5 harg5 arg6 harg6 arg7 harg7 hc0 hc1 x0 x1 x2 x3 x4 xs0).2.1)

end CaseB

section CaseC
variable (hc0 : ¬cond3_0 i) (hc1 : cond3_1 i) (x0 : Vec F S5000x128 .f32) (x1 : Vec F S5000x1 .f32) (x2 : Vec F S5000x1 .i32) (x3 : Vec F S64x128 .f32) (x4 : Vec F S1x64 .f32) (xs0 : Vec F S8x128 .f32)
include hc0 hc1

set_option maxHeartbeats 1000000 in
/-- The last point (second taken): as a middle point, and the output block is stored over whole. -/
noncomputable def kernelRun3_C :
    Σ' (L5 : List (View.Piece (Elt F) S8x64 .f32)), { LS0 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

theorem cover3_C_5 (y : S8x64.Idx) :
    ∃ pc ∈ (kernelRun3_C c i arg1 harg1 arg2 harg2 arg3 harg3 arg4 harg4 arg5 harg5 arg6 harg6 arg7 harg7 hc0 hc1 x0 x1 x2 x3 x4 xs0).1, y ∈ pc.1.set :=
  View.cover_of_tiledL (kernelRun3_C c i arg1 harg1 arg2 harg2 arg3 harg3 arg4 harg4 arg5 harg5 arg6 harg6 arg7 harg7 hc0 hc1 x0 x1 x2 x3 x4 xs0).1 S8x64.size (by sl_kernel_rfl) y

def out3_C_5 : Vec F S8x64 .f32 :=
  VO3_5.read (Elt F) (VO3_5.writes (Elt F) VO3_5.junk (kernelRun3_C c i arg1 harg1 arg2 harg2 arg3 harg3 arg4 harg4 arg5 harg5 arg6 harg6 arg7 harg7 hc0 hc1 x0 x1 x2 x3 x4 xs0).1)

theorem scover3_C_0 (y : S8x128.Idx) :
    ∃ pc ∈ (kernelRun3_C c i arg1 harg1 arg2 harg2 arg3 harg3 arg4 harg4 arg5 harg5 arg6 harg6 arg7 harg7 hc0 hc1 x0 x1 x2 x3 x4 xs0).2.1, y ∈ pc.1.set :=
  View.cover_of_tiledL (kernelRun3_C c i arg1 harg1 arg2 harg2 arg3 harg3 arg4 harg4 arg5 harg5 arg6 harg6 arg7 harg7 hc0 hc1 x0 x1 x2 x3 x4 xs0).2.1 S8x128.size (by sl_kernel_rfl) y

def sout3_C_0 : Vec F S8x128 .f32 :=
  VS3_0.read (Elt F) (VS3_0.writes (Elt F) VS3_0.junk (kernelRun3_C c i arg1 harg1 arg2 harg2 arg3 harg3 arg4 harg4 arg5 harg5 arg6 harg6 arg7 harg7 hc0 hc1 x0 x1 x2 x3 x4 xs0).2.1)

end CaseC

end Cases

def outsA (c : Dev nD) (t : Fin cfg3.N) (h0 : t.val % 10 = 0) (h1 : ¬t.val % 10 = 9) : Vec F S8x64 .f32 × Vec F S8x128 .f32 :=
  (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t),
    sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t))

def outsB (c : Dev nD) (t : Fin cfg3.N) (h0 : ¬t.val % 10 = 0) (h1 : ¬t.val % 10 = 9) (xs : Vec F S8x128 .f32) : Vec F S8x64 .f32 × Vec F S8x128 .f32 :=
  (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs,
    sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs)

def outsC (c : Dev nD) (t : Fin cfg3.N) (h0 : ¬t.val % 10 = 0) (h1 : t.val % 10 = 9) (xs : Vec F S8x128 .f32) : Vec F S8x64 .f32 × Vec F S8x128 .f32 :=
  (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) xs,
    sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) xs)

/-- What the output block and the accumulator hold after point n: the case its position selects, over what point n - 1 left in the accumulator. -/
def outsAt3 (c : Dev nD) : (n : ℕ) → n < cfg3.N → Vec F S8x64 .f32 × Vec F S8x128 .f32
  | 0, hn => outsA V c ⟨0, hn⟩ (Nat.zero_mod _) (fun h => by (try dsimp only at h); omega)
  | n + 1, hn =>
    if h0 : (n + 1) % 10 = 0 then
      if h1 : (n + 1) % 10 = 9 then False.elim (by omega) else outsA V c ⟨n + 1, hn⟩ h0 h1
    else
      if h1 : (n + 1) % 10 = 9 then outsC V c ⟨n + 1, hn⟩ h0 h1 (outsAt3 c n (Nat.lt_of_succ_lt hn)).2
      else outsB V c ⟨n + 1, hn⟩ h0 h1 (outsAt3 c n (Nat.lt_of_succ_lt hn)).2

theorem outsAt3_A (c : Dev nD) (t : Fin cfg3.N) (h0 : t.val % 10 = 0) (h1 : ¬t.val % 10 = 9) :
    outsAt3 V c t.val t.isLt = outsA V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 10 = 0) (h1 : ¬t.val % 10 = 9) :
    outsAt3 V c t.val t.isLt = outsB V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 10 = 0) (h1 : t.val % 10 = 9) :
    outsAt3 V c t.val t.isLt = outsC V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The invariant before point n: the accumulator at what point n - 1 left (at anything before the first point). -/
def PhiS (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc (c : Dev nD) (t : Fin cfg3.N) :
    (dat3 V c).Φ t.castSucc = PhiS V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body's triple at any point, case by case; the stores cover the accumulator, so it is handed on at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS V c (t.val + 1) t.isLt from rfl, PhiS_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  have hN : t.val < 10 := lt_of_lt_of_eq t.isLt (show cfg3.N = 10 from N_3)
  by_cases h0 : t.val % 10 = 0
  · by_cases h1 : t.val % 10 = 9
    · exfalso; omega
    ·
      rw [Dat.leavesExact_idle (dat3 V c) 5 t (idleAt3_5_A t ((hcond3_0 t).mpr h0) (fun h => h1 ((hcond3_1 t).mp h))) (noFlush3_5_A t ((hcond3_0 t).mpr h0) (fun h => h1 ((hcond3_1 t).mp h)))]
      rw [outsAt3_A V c t h0 h1]
      unfold outsA sout3_A_0; (try dsimp only)
      by_cases hz : t.val = 0
      · rw [PhiS_castSucc V c t, PhiS_zero V c _ _ hz, PhiA3_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 10 = 9
    ·
      rw [show (dat3 V c).leavesExact 5 t = owns (c : Thread nD τ) (ms3_5 t) fullShare ((dat3 V c).after 5 t) from by
        unfold Dat.leavesExact; rw [liveAt3_5_C t (fun h => h0 ((hcond3_0 t).mp h)) ((hcond3_1 t).mpr h1)], after3_5]
      rw [outsAt3_C V c t h0 h1]
      unfold outsC out3_C_5 sout3_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover3_C_5 c _ _ _ _ _ _ _ _ _ _ _ _ _ _ _ _ _ _ _ _ _ _ _)
    ·
      rw [Dat.leavesExact_idle (dat3 V c) 5 t (idleAt3_5_B t (fun h => h0 ((hcond3_0 t).mp h)) (fun h => h1 ((hcond3_1 t).mp h))) (noFlush3_5_B t (fun h => h0 ((hcond3_0 t).mp h)) (fun h => h1 ((hcond3_1 t).mp h)))]
      rw [outsAt3_B V c t h0 h1]
      unfold outsB sout3_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 10 := N_3; omega)

end Region3

end Cert.Kernel.Hand

end
-- ==== Proof.KernelRun.lean ====
import proofs.«416290_j3246995276182_1_alg».proof.Proof.KernelLaunchP
import proofs.«416290_j3246995276182_1_alg».proof.Proof.Gen.Kernel.Skeleton
import proofs.«416290_j3246995276182_1_alg».proof.Proof.Gen.Kernel.Points
import proofs.«416290_j3246995276182_1_alg».proof.Proof.KernelReg0
import proofs.«416290_j3246995276182_1_alg».proof.Proof.KernelReg1
import proofs.«416290_j3246995276182_1_alg».proof.Proof.KernelReg2
import proofs.«416290_j3246995276182_1_alg».proof.Proof.KernelReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
abbrev hostOps0_W : List (Ref sig .tc) := [main_v0, main_v1, main_v2, main_v3, main_v4]
abbrev hostOps1_W : List (Ref sig .tc) := [main_cst, main_v6, main_cst_0, main_v7, main_v8, main_v9, main_c, main_v10, main_v11, main_c_1, main_v12, main_v13, main_v14, main_v15, main_v16, main_cst_2, main_v17, main_v18, main_v19, main_v20, main_v21]
abbrev hostOps2_W : List (Ref sig .tc) := [main_c_3, main_v23, main_v24, main_c_4, main_v25, main_v26, main_v27, main_v28, main_v29, main_cst_5, main_v30, main_v31, main_v32, main_v33, main_v34]
abbrev hostOps3_W : List (Ref sig .tc) := [main_v36, main_v37, main_v38, main_v39, main_v40, main_cst_6, main_v41, main_cst_7, main_v42, main_v43, main_v44, main_v45, main_v46, main_v47, main_cst_8, main_v48, main_v49, main_v50, main_v51, main_v52, main_v53]
/-- Each host operation writes its one result, a reference of its stretch's list. -/
theorem hostOps_writes :
    ((hostOps0 : List (HloOp τ sig (Elt F))).Forall fun op => op.writes ⊆ (hostOps0_W.map (Proc.devRef (τ := τ) .tc)).toFinset)
    ∧ ((hostOps1 : List (HloOp τ sig (Elt F))).Forall fun op => op.writes ⊆ (hostOps1_W.map (Proc.devRef (τ := τ) .tc)).toFinset)
    ∧ ((hostOps2 : List (HloOp τ sig (Elt F))).Forall fun op => op.writes ⊆ (hostOps2_W.map (Proc.devRef (τ := τ) .tc)).toFinset)
    ∧ ((hostOps3 : List (HloOp τ sig (Elt F))).Forall fun op => op.writes ⊆ (hostOps3_W.map (Proc.devRef (τ := τ) .tc)).toFinset) := by
  simp only [List.Forall]
  repeat' constructor
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

abbrev W0 : Dev nD → Valuation τ sig (Elt F) := fun c b => (s₀ m ρ).mem ((c : Dev nD), b)
/-- A region leaves a buffer that is no output window's array of it as it found it: either none of its arrays, or an input's. -/
theorem exit_keep {p : Fin 4} (lf : Pipeline.LaunchFacts (nD := nD) (τ := τ) cfgs p) (c : Dev nD) (W : Valuation τ sig (Elt F))
    (d : Dat τ (Elt F) Unit ℕ (UR sig nD τ) ℕ (cfgs p) c) (hA : ∀ w, d.A w = W (Proc.devRef .tc (Pipeline.arrRef (cfgs p).spec w)))
    (b : Ref sig .tc) (hb : ∀ w, Pipeline.arrRef (cfgs p).spec w = b → ((cfgs p).win w).isOut = false) :
    Pipeline.withArrays (cfgs p).spec c W (fun w => d.arrAt w (cfgs p).N) (Proc.devRef .tc b) = W (Proc.devRef .tc b) := by
  by_cases h : ∃ w, Pipeline.arrRef (cfgs p).spec w = b
  · obtain ⟨w, rfl⟩ := h
    exact (Pipeline.withArrays_arr _ lf.win.arr_inj c _ _ w).trans ((d.arrAt_in w (hb w rfl) _).trans (hA w))
  · exact Pipeline.withArrays_of_ne _ c _ _ b fun w e => h ⟨w, e⟩
abbrev W1 : Dev nD → Valuation τ sig (Elt F) := fun c => StableHlo.after hostOps0 (W0 m ρ c)
abbrev Vw1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (Vw1 m ρ) c).arrAt w cfg0.N
theorem W2_arr (c : Dev nD) (w : Fin cfg0.W) :
    W2 m ρ c (Proc.devRef .tc (Pipeline.arrRef spec0 w)) = (dat0 (Vw1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W1_of (c : Dev nD) (r : Ref sig .tc) (h : r ∉ hostOps0_W) : W1 m ρ c (Proc.devRef .tc r) = W0 m ρ c (Proc.devRef .tc r) :=
  StableHlo.after_of_writes_sub hostOps0 _ hostOps_writes.1 h
abbrev W3 : Dev nD → Valuation τ sig (Elt F) := fun c => StableHlo.after hostOps1 (W2 m ρ c)
abbrev Vw3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (Vw3 m ρ) c).arrAt w cfg1.N
theorem W4_arr (c : Dev nD) (w : Fin cfg1.W) :
    W4 m ρ c (Proc.devRef .tc (Pipeline.arrRef spec1 w)) = (dat1 (Vw3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
theorem W3_of (c : Dev nD) (r : Ref sig .tc) (h : r ∉ hostOps1_W) : W3 m ρ c (Proc.devRef .tc r) = W2 m ρ c (Proc.devRef .tc r) :=
  StableHlo.after_of_writes_sub hostOps1 _ hostOps_writes.2.1 h
abbrev W5 : Dev nD → Valuation τ sig (Elt F) := fun c => StableHlo.after hostOps2 (W4 m ρ c)
abbrev Vw5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (Vw5 m ρ) c).arrAt w cfg2.N
theorem W6_arr (c : Dev nD) (w : Fin cfg2.W) :
    W6 m ρ c (Proc.devRef .tc (Pipeline.arrRef spec2 w)) = (dat2 (Vw5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
theorem W5_of (c : Dev nD) (r : Ref sig .tc) (h : r ∉ hostOps2_W) : W5 m ρ c (Proc.devRef .tc r) = W4 m ρ c (Proc.devRef .tc r) :=
  StableHlo.after_of_writes_sub hostOps2 _ hostOps_writes.2.2.1 h
abbrev W7 : Dev nD → Valuation τ sig (Elt F) := fun c => StableHlo.after hostOps3 (W6 m ρ c)
abbrev Vw7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (Vw7 m ρ) c).arrAt w cfg3.N
theorem W8_arr (c : Dev nD) (w : Fin cfg3.W) :
    W8 m ρ c (Proc.devRef .tc (Pipeline.arrRef spec3 w)) = (dat3 (Vw7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
theorem W7_of (c : Dev nD) (r : Ref sig .tc) (h : r ∉ hostOps3_W) : W7 m ρ c (Proc.devRef .tc r) = W6 m ρ c (Proc.devRef .tc r) :=
  StableHlo.after_of_writes_sub hostOps3 _ hostOps_writes.2.2.2 h

abbrev args : List (Ref sig .tc) :=
  [main_arg0, main_arg1, main_arg2, main_arg3, main_arg4, main_arg5, main_arg6, main_arg7, main_arg8, main_arg9, main_arg10, main_arg11, main_arg12, main_arg13, main_arg14]

/-- No host operation writes an argument array and no region has one as an output: at every boundary each is as launched. -/
theorem W1_args (c : Dev nD) (b : Ref sig .tc) (hb : b ∈ args) : W1 m ρ c (Proc.devRef .tc b) = m ((c : Thread nD τ).loc b) :=
  W1_of m ρ c b ((by decide : ∀ b ∈ args, b ∉ hostOps0_W) b hb)
theorem W2_args (c : Dev nD) (b : Ref sig .tc) (hb : b ∈ args) : W2 m ρ c (Proc.devRef .tc b) = m ((c : Thread nD τ).loc b) :=
  (exit_keep launch0 c _ _ (A_eq0 (Vw1 m ρ) c) b ((by decide : ∀ b ∈ args, ∀ w, Pipeline.arrRef spec0 w = b → (cfg0.win w).isOut = false) b hb)).trans (W1_args m ρ c b hb)
theorem W3_args (c : Dev nD) (b : Ref sig .tc) (hb : b ∈ args) : W3 m ρ c (Proc.devRef .tc b) = m ((c : Thread nD τ).loc b) :=
  (W3_of m ρ c b ((by decide : ∀ b ∈ args, b ∉ hostOps1_W) b hb)).trans (W2_args m ρ c b hb)
theorem W4_args (c : Dev nD) (b : Ref sig .tc) (hb : b ∈ args) : W4 m ρ c (Proc.devRef .tc b) = m ((c : Thread nD τ).loc b) :=
  (exit_keep launch1 c _ _ (A_eq1 (Vw3 m ρ) c) b ((by decide : ∀ b ∈ args, ∀ w, Pipeline.arrRef spec1 w = b → (cfg1.win w).isOut = false) b hb)).trans (W3_args m ρ c b hb)
theorem W5_args (c : Dev nD) (b : Ref sig .tc) (hb : b ∈ args) : W5 m ρ c (Proc.devRef .tc b) = m ((c : Thread nD τ).loc b) :=
  (W5_of m ρ c b ((by decide : ∀ b ∈ args, b ∉ hostOps2_W) b hb)).trans (W4_args m ρ c b hb)
theorem W6_args (c : Dev nD) (b : Ref sig .tc) (hb : b ∈ args) : W6 m ρ c (Proc.devRef .tc b) = m ((c : Thread nD τ).loc b) :=
  (exit_keep launch2 c _ _ (A_eq2 (Vw5 m ρ) c) b ((by decide : ∀ b ∈ args, ∀ w, Pipeline.arrRef spec2 w = b → (cfg2.win w).isOut = false) b hb)).trans (W5_args m ρ c b hb)
theorem W7_args (c : Dev nD) (b : Ref sig .tc) (hb : b ∈ args) : W7 m ρ c (Proc.devRef .tc b) = m ((c : Thread nD τ).loc b) :=
  (W7_of m ρ c b ((by decide : ∀ b ∈ args, b ∉ hostOps3_W) b hb)).trans (W6_args m ρ c b hb)
theorem W8_args (c : Dev nD) (b : Ref sig .tc) (hb : b ∈ args) : W8 m ρ c (Proc.devRef .tc b) = m ((c : Thread nD τ).loc b) :=
  (exit_keep launch3 c _ _ (A_eq3 (Vw7 m ρ) c) b ((by decide : ∀ b ∈ args, ∀ w, Pipeline.arrRef spec3 w = b → (cfg3.win w).isOut = false) b hb)).trans (W7_args m ρ c b hb)

abbrev admH : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) admH p) c
  | ⟨0, _⟩ => fun c => dat0 (Vw1 m ρ) c
  | ⟨1, _⟩ => fun c => dat1 (Vw3 m ρ) c
  | ⟨2, _⟩ => fun c => dat2 (Vw5 m ρ) c
  | ⟨3, _⟩ => fun c => dat3 (Vw7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- A kernel region as an item of @main: entered with every buffer at `Wi`, left with its windows' arrays at their final contents and every other buffer as entered. -/
def reg (p : Fin 4) (lf : Pipeline.LaunchFacts (nD := nD) (τ := τ) cfgs p) (Wi : Dev nD → Valuation τ sig (Elt F))
    (hb : ∀ c, Pipeline.BodyObligationLoose (pdats m ρ p c) (defs₀ (F := F)) 𝒱₀ () Set.univ)
    (hq : ∀ c w, (pdats m ρ p c).q w = fullShare) (ho : ∀ c t, (pdats m ρ p c).owed t = 0) (hr : ∀ c, (pdats m ρ p c).recorded 0 = Set.univ)
    (hA : ∀ c w, (pdats m ρ p c).A w = Wi c (Proc.devRef .tc (Pipeline.arrRef (cfgs p).spec w)))
    (hi : ∀ c, (Pipeline.ΦA (cfgs p).spec c : sProp 𝕄) ⊢ (pdats m ρ p c).Φ 0)
    (hl : ∀ c, (pdats m ρ p c).Φ (Fin.last _) ⊢ (Pipeline.ΦA (cfgs p).spec c : sProp 𝕄)) :
    Pipeline.RegionSeg (pcfgs (F := F)) admH (pdats m ρ) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) admH (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (hr c ▸ trivial)
      rw [ho c 0]; iexact HO
    isplitl [Hp]; · iexact Hp
    iexact Hrest
  hin c := by
    refine .trans ?_ (hi c); unfold Pipeline.ΦA
    iintro ⟨Hp, -, Hr⟩
    isplitl [Hr]; · iexact Hr
    iexact Hp
  hout c := by
    rw [Pipeline.ownSems0_none]; refine (hl c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      lf.win lf.arr_whole c (pdats m ρ) ((pdats m ρ p c).share_full (hq c)) (fun b => Wi c b)
      (fun b => Pipeline.withArrays (cfgs p).spec c (Wi c) (fun w => (pdats m ρ p c).arrAt w (cfgs p).N) b)
      ((pdats m ρ p c).arrAt · (cfgs p).N)
      (fun w => (Pipeline.withArrays_arr (cfgs p).spec lf.win.arr_inj c (Wi c) (fun w => (pdats m ρ p c).arrAt w (cfgs p).N) w).symm)
      (fun b hb => Pipeline.withArrays_of_ne (cfgs p).spec c (Wi c) (fun w => (pdats m ρ p c).arrAt w (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c]
    icases HO with ⟨%W, -, HO⟩; iexists W; iexact HO

/-- @main: a stretch of host operations, then a kernel region, four times. -/
abbrev items : List (Pipeline.Seg (pcfgs (F := F)) admH (pdats m ρ) () defs₀ 𝒱₀ L lv) :=
  [ .host (hseg hostOps0 hostOps0_sub hostOps0_fresh (W0 m ρ)),
    .region (reg m ρ 0 launch0 (W1 m ρ) (fun c => (body_obligation0 (Vw1 m ρ) c).loose) (fun _ _ => rfl) (fun _ _ => rfl) (fun _ => rfl) (fun _ _ => rfl) (fun _ => .rfl) (fun _ => .rfl)),
    .host (hseg hostOps1 hostOps1_sub hostOps1_fresh (W2 m ρ)),
    .region (reg m ρ 1 launch1 (W3 m ρ) (fun c => (body_obligation1 (Vw3 m ρ) c).loose) (fun _ _ => rfl) (fun _ _ => rfl) (fun _ => rfl) (fun _ _ => rfl) (fun _ => .rfl) (fun _ => .rfl)),
    .host (hseg hostOps2 hostOps2_sub hostOps2_fresh (W4 m ρ)),
    .region (reg m ρ 2 launch2 (W5 m ρ) (fun c => (body_obligation2 (Vw5 m ρ) c).loose) (fun _ _ => rfl) (fun _ _ => rfl) (fun _ => rfl) (fun _ _ => rfl) (fun _ => .rfl) (fun _ => .rfl)),
    .host (hseg hostOps3 hostOps3_sub hostOps3_fresh (W6 m ρ)),
    .region (reg m ρ 3 launch3 (W7 m ρ) (fun c => (body_obligation3 (Vw7 m ρ) c).loose) (fun _ _ => rfl) (fun _ _ => rfl) (fun _ => rfl) (fun _ _ => rfl) (hin3 (Vw7 m ρ)) (hout3 (Vw7 m ρ))) ]
theorem main_run (c : Dev nD) : main (F := F) c = Pipeline.Seg.run (items m ρ) := (main_chain c).trans (by chain_rfl)

set_option backward.isDefEq.respectTransparency.types false in
/-- Every weakly fair execution of @main terminates without a fault, the result array at what region 3 writes back, every argument array as launched. -/
theorem run_all : θ_run defs (onTc (τ := τ) (main (F := F))) ⟨m, fun _ => 0, ρ⟩ (fun r => ∀ c : Dev nD,
      r.2.mem ((c : Thread nD τ).loc main_v54) = W8 m ρ c (Proc.devRef .tc main_v54)
      ∧ ∀ b ∈ args, r.2.mem ((c : Thread nD τ).loc b) = m ((c : Thread nD τ).loc b)) :=
  Pipeline.θ_run_regions_kit (pcfgs (F := F)) admH (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => ⟨h c _ (mem_uc main_v54 (by decide)), fun b hb =>
      (h c _ (mem_uc b ((by decide : ∀ b ∈ args, ¬(Proc.devRef .tc b : DevRef τ sig).isScoped) b hb))).trans (W8_args m ρ c b hb)⟩)

end Cert.Kernel.Hand

end
-- ==== Proof.KernelIdealReg0.lean ====
import proofs.«416290_j3246995276182_1_alg».proof.Proof.KernelIdealLaunchP
import proofs.«416290_j3246995276182_1_alg».proof.Proof.Gen.KernelIdeal.Skeleton
import proofs.«416290_j3246995276182_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x300 := Rect.unit (s := S5000x300) ![0, 0] S5000x300.size inb_S5000x300_S5000x300_0_0
abbrev r0_w : Rect S128x300 := Rect.unit (s := S128x300) ![0, 0] S128x300.size inb_S128x300_S128x300_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

/-- The output block after the body: its one store, over the whole block, of the layer's value on the loaded blocks. -/
def out0_3 (x0 : Vec F S5000x300 .f32) (x1 : Vec F S128x300 .f32) (x2 : Vec F S1x128 .f32) : Vec F S5000x128 .f32 :=
  View.canon [⟨r0_o, k0_pay1 (View.ld x0 r0_x) (View.ld x1 r0_w) (View.ld x2 r0_b)⟩]

theorem cover0_3 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 1000000 in
/-- On whole buffers the body leaves the inputs as they were and the output at `out0_3` of them. -/
theorem sound_kernel0 (c : Dev nD) (E : Set ℕ) (i : grid0.Coords) (arg1 : Memref sig .tc .vmem S5000x300 .f32) (harg1 : arg1.IsWhole) (arg2 : Memref sig .tc .vmem S128x300 .f32) (harg2 : arg2.IsWhole) (arg3 : Memref sig .tc .vmem S1x128 .f32) (harg3 : arg3.IsWhole) (arg4 : Memref sig .tc .vmem S5000x128 .f32) (harg4 : arg4.IsWhole)
    (x0 : Vec F S5000x300 .f32) (x1 : Vec F S128x300 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's triple at every grid point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdealReg1.lean ====
import proofs.«416290_j3246995276182_1_alg».proof.Proof.KernelIdealLaunchP
import proofs.«416290_j3246995276182_1_alg».proof.Proof.Gen.KernelIdeal.Skeleton
import proofs.«416290_j3246995276182_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_f : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

/-- The output block after the body: its one store, over the whole block, of the layer's value on the loaded blocks. -/
def out1_6 (x0 : Vec F S5000x128 .f32) (x1 : Vec F S5000x1 .f32) (x2 : Vec F S5000x128 .f32) (x3 : Vec F S128x128 .f32) (x4 : Vec F S1x128 .f32) (x5 : Vec F S128x128 .f32) : Vec F S5000x128 .f32 :=
  View.canon [⟨r1_f, k1_pay1 (View.ld x1 r1_d) (View.ld x0 r1_f) (View.ld x2 r1_f) (View.ld x3 r1_w) (View.ld x5 r1_w) (View.ld x4 r1_b)⟩]

theorem cover1_6 (p0 : Vec F S5000x128 .f32) (y : S5000x128.Idx) :
    ∃ pc ∈ ([⟨r1_f, p0⟩] : List (View.Piece (Elt F) S5000x128 .f32)), y ∈ pc.1.set :=
  View.cover_of_tiled [⟨r1_f, p0⟩] S5000x128.size (by rfl) y

set_option maxHeartbeats 1000000 in
/-- On whole buffers the body leaves the inputs as they were and the output at `out1_6` of them. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x128 .f32) (harg7 : arg7.IsWhole)
    (x0 : Vec F S5000x128 .f32) (x1 : Vec F S5000x1 .f32) (x2 : Vec F S5000x128 .f32) (x3 : Vec F S128x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__sage_kernel i arg1 harg1 arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's triple at every grid point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdealReg2.lean ====
import proofs.«416290_j3246995276182_1_alg».proof.Proof.KernelIdealLaunchP
import proofs.«416290_j3246995276182_1_alg».proof.Proof.Gen.KernelIdeal.Skeleton
import proofs.«416290_j3246995276182_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_f : Rect S5000x128 := Rect.unit (s := S5000x128) ![0, 0] S5000x128.size inb_S5000x128_S5000x128_0_0
abbrev r2_d : Rect S5000x1 := Rect.unit (s := S5000x1) ![0, 0] S5000x1.size inb_S5000x1_S5000x1_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

/-- The output block after the body: its one store, over the whole block, of the layer's value on the loaded blocks. -/
def out2_6 (x0 : Vec F S5000x128 .f32) (x1 : Vec F S5000x1 .f32) (x2 : Vec F S5000x128 .f32) (x3 : Vec F S128x128 .f32) (x4 : Vec F S1x128 .f32) (x5 : Vec F S128x128 .f32) : Vec F S5000x128 .f32 :=
  View.canon [⟨r2_f, k2_pay1 (View.ld x1 r2_d) (View.ld x0 r2_f) (View.ld x2 r2_f) (View.ld x3 r2_w) (View.ld x5 r2_w) (View.ld x4 r2_b)⟩]

theorem cover2_6 (p0 : Vec F S5000x128 .f32) (y : S5000x128.Idx) :
    ∃ pc ∈ ([⟨r2_f, p0⟩] : List (View.Piece (Elt F) S5000x128 .f32)), y ∈ pc.1.set :=
  View.cover_of_tiled [⟨r2_f, p0⟩] S5000x128.size (by rfl) y

set_option maxHeartbeats 1000000 in
/-- On whole buffers the body leaves the inputs as they were and the output at `out2_6` of them. -/
theorem sound_kernel2 (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x128 .f32) (harg7 : arg7.IsWhole)
    (x0 : Vec F S5000x128 .f32) (x1 : Vec F S5000x1 .f32) (x2 : Vec F S5000x128 .f32) (x3 : Vec F S128x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__sage_kernel i arg1 harg1 arg2 harg2 arg3 harg3 arg4 harg4 arg5 harg5 arg6 harg6 arg7 harg7) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's triple at every grid point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KernelIdealReg3.lean ====
import proofs.«416290_j3246995276182_1_alg».proof.Proof.KernelIdealLaunchP
import proofs.«416290_j3246995276182_1_alg».proof.Proof.Gen.KernelIdeal.Skeleton
import proofs.«416290_j3246995276182_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
/-- The first conditional is taken at the first point only. -/
theorem hcond3_0 : ∀ t : Fin cfg3.N, cond3_0 (grid3.coords t) ↔ t.val % 10 = 0 :=
  (by decide +kernel : ∀ t : Fin grid3.N, cond3_0 (grid3.coords t) ↔ t.val % 10 = 0)

abbrev cond3_1 (i : grid3.Coords) : Prop := k3_cond2 i = 1#1
/-- The second conditional is taken at the last point only. -/
theorem hcond3_1 : ∀ t : Fin cfg3.N, cond3_1 (grid3.coords t) ↔ t.val % 10 = 9 :=
  (by decide +kernel : ∀ t : Fin grid3.N, cond3_1 (grid3.coords t) ↔ t.val % 10 = 9)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5_A : ∀ t : Fin cfg3.N, cond3_0 (grid3.coords t) → ¬cond3_1 (grid3.coords t) → cfg3.idle 5 (grid3.coords t) = true := by decide +kernel
theorem noFlush3_5_A : ∀ t : Fin cfg3.N, cond3_0 (grid3.coords t) → ¬cond3_1 (grid3.coords t) → (cfg3.win 5).flush t = false := by decide +kernel
theorem idleAt3_5_B : ∀ t : Fin cfg3.N, ¬cond3_0 (grid3.coords t) → ¬cond3_1 (grid3.coords t) → cfg3.idle 5 (grid3.coords t) = true := by decide +kernel
theorem noFlush3_5_B : ∀ t : Fin cfg3.N, ¬cond3_0 (grid3.coords t) → ¬cond3_1 (grid3.coords t) → (cfg3.win 5).flush t = false := by decide +kernel
theorem liveAt3_5_C : ∀ t : Fin cfg3.N, ¬cond3_0 (grid3.coords t) → cond3_1 (grid3.coords t) → cfg3.idle 5 (grid3.coords t) = false := by decide +kernel

abbrev VO3_5 : View sig .tc .vmem S8x64 .f32 := (Memref.whole cc3_stg5_0 : Memref sig .tc .vmem S8x64 .f32).view
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S8x64 .f32 := win3_5.stage (cfg3.slots t 5)
abbrev hs3_5 (t : Fin cfg3.N) : (ms3_5 t).IsWhole := hstage3_5 ((cfg3.slots t 5).cast nbuf3_5)
abbrev scM3_0 : Memref sig .tc .vmem S8x128 .f32 := Memref.whole cc3_scratch0
abbrev VS3_0 : View sig .tc .vmem S8x128 .f32 := scM3_0.view

theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

section Cases
variable (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8x64 .f32) (harg6 : arg6.IsWhole) (arg7 : Memref sig .tc .vmem S8x128 .f32) (harg7 : arg7.IsWhole)

section CaseA
variable (hc0 : cond3_0 i) (hc1 : ¬cond3_1 i) (x0 : Vec F S5000x128 .f32) (x1 : Vec F S5000x1 .f32) (x2 : Vec F S5000x1 .i32) (x3 : Vec F S64x128 .f32) (x4 : Vec F S1x64 .f32)
include hc0 hc1

set_option maxHeartbeats 1000000 in
/-- The first point (first conditional taken, second not): the accumulator comes in at anything and is overwritten before it is read. -/
noncomputable def kernelRun3_A :
    Σ' (L5 : List (View.Piece (Elt F) S8x64 .f32)), { LS0 : List (View.Piece (Elt F) S8x128 .f32) //
      ∀ (xi5 : Vec F S8x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨[], ?_, fun xi5 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

def out3_A_5 : Vec F S8x64 .f32 :=
  VO3_5.read (Elt F) (VO3_5.writes (Elt F) VO3_5.junk (kernelRun3_A c i arg1 harg1 arg2 harg2 arg3 harg3 arg4 harg4 arg5 harg5 arg6 harg6 arg7 harg7 hc0 hc1 x0 x1 x2 x3 x4).1)

theorem scover3_A_0 (y : S8x128.Idx) :
    ∃ pc ∈ (kernelRun3_A c i arg1 harg1 arg2 harg2 arg3 harg3 arg4 harg4 arg5 harg5 arg6 harg6 arg7 harg7 hc0 hc1 x0 x1 x2 x3 x4).2.1, y ∈ pc.1.set :=
  View.cover_of_tiledL (kernelRun3_A c i arg1 harg1 arg2 harg2 arg3 harg3 arg4 harg4 arg5 harg5 arg6 harg6 arg7 harg7 hc0 hc1 x0 x1 x2 x3 x4).2.1 S8x128.size (by sl_kernel_rfl) y

def sout3_A_0 : Vec F S8x128 .f32 :=
  VS3_0.read (Elt F) (VS3_0.writes (Elt F) VS3_0.junk (kernelRun3_A c i arg1 harg1 arg2 harg2 arg3 harg3 arg4 harg4 arg5 harg5 arg6 harg6 arg7 harg7 hc0 hc1 x0 x1 x2 x3 x4).2.1)

end CaseA

section CaseB
variable (hc0 : ¬cond3_0 i) (hc1 : ¬cond3_1 i) (x0 : Vec F S5000x128 .f32) (x1 : Vec F S5000x1 .f32) (x2 : Vec F S5000x1 .i32) (x3 : Vec F S64x128 .f32) (x4 : Vec F S1x64 .f32) (xs0 : Vec F S8x128 .f32)
include hc0 hc1

set_option maxHeartbeats 1000000 in
/-- A middle point (neither taken): the accumulator comes in at what the point before left. -/
noncomputable def kernelRun3_B :
    Σ' (L5 : List (View.Piece (Elt F) S8x64 .f32)), { LS0 : List (View.Piece (Elt F) S8x128 .f32) //
      ∀ (xi5 : Vec F S8x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨[], ?_, fun xi5 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

def out3_B_5 : Vec F S8x64 .f32 :=
  VO3_5.read (Elt F) (VO3_5.writes (Elt F) VO3_5.junk (kernelRun3_B c i arg1 harg1 arg2 harg2 arg3 harg3 arg4 harg4 arg5 harg5 arg6 harg6 arg7 harg7 hc0 hc1 x0 x1 x2 x3 x4 xs0).1)

theorem scover3_B_0 (y : S8x128.Idx) :
    ∃ pc ∈ (kernelRun3_B c i arg1 harg1 arg2 harg2 arg3 harg3 arg4 harg4 arg5 harg5 arg6 harg6 arg7 harg7 hc0 hc1 x0 x1 x2 x3 x4 xs0).2.1, y ∈ pc.1.set :=
  View.cover_of_tiledL (kernelRun3_B c i arg1 harg1 arg2 harg2 arg3 harg3 arg4 harg4 arg5 harg5 arg6 harg6 arg7 harg7 hc0 hc1 x0 x1 x2 x3 x4 xs0).2.1 S8x128.size (by sl_kernel_rfl) y

def sout3_B_0 : Vec F S8x128 .f32 :=
  VS3_0.read (Elt F) (VS3_0.writes (Elt F) VS3_0.junk (kernelRun3_B c i arg1 harg1 arg2 harg2 arg3 harg3 arg4 harg4 arg5 harg5 arg6 harg6 arg7 harg7 hc0 hc1 x0 x1 x2 x3 x4 xs0).2.1)

end CaseB

section CaseC
variable (hc0 : ¬cond3_0 i) (hc1 : cond3_1 i) (x0 : Vec F S5000x128 .f32) (x1 : Vec F S5000x1 .f32) (x2 : Vec F S5000x1 .i32) (x3 : Vec F S64x128 .f32) (x4 : Vec F S1x64 .f32) (xs0 : Vec F S8x128 .f32)
include hc0 hc1

set_option maxHeartbeats 1000000 in
/-- The last point (second taken): as a middle point, and the output block is stored over whole. -/
noncomputable def kernelRun3_C :
    Σ' (L5 : List (View.Piece (Elt F) S8x64 .f32)), { LS0 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

theorem cover3_C_5 (y : S8x64.Idx) :
    ∃ pc ∈ (kernelRun3_C c i arg1 harg1 arg2 harg2 arg3 harg3 arg4 harg4 arg5 harg5 arg6 harg6 arg7 harg7 hc0 hc1 x0 x1 x2 x3 x4 xs0).1, y ∈ pc.1.set :=
  View.cover_of_tiledL (kernelRun3_C c i arg1 harg1 arg2 harg2 arg3 harg3 arg4 harg4 arg5 harg5 arg6 harg6 arg7 harg7 hc0 hc1 x0 x1 x2 x3 x4 xs0).1 S8x64.size (by sl_kernel_rfl) y

def out3_C_5 : Vec F S8x64 .f32 :=
  VO3_5.read (Elt F) (VO3_5.writes (Elt F) VO3_5.junk (kernelRun3_C c i arg1 harg1 arg2 harg2 arg3 harg3 arg4 harg4 arg5 harg5 arg6 harg6 arg7 harg7 hc0 hc1 x0 x1 x2 x3 x4 xs0).1)

theorem scover3_C_0 (y : S8x128.Idx) :
    ∃ pc ∈ (kernelRun3_C c i arg1 harg1 arg2 harg2 arg3 harg3 arg4 harg4 arg5 harg5 arg6 harg6 arg7 harg7 hc0 hc1 x0 x1 x2 x3 x4 xs0).2.1, y ∈ pc.1.set :=
  View.cover_of_tiledL (kernelRun3_C c i arg1 harg1 arg2 harg2 arg3 harg3 arg4 harg4 arg5 harg5 arg6 harg6 arg7 harg7 hc0 hc1 x0 x1 x2 x3 x4 xs0).2.1 S8x128.size (by sl_kernel_rfl) y

def sout3_C_0 : Vec F S8x128 .f32 :=
  VS3_0.read (Elt F) (VS3_0.writes (Elt F) VS3_0.junk (kernelRun3_C c i arg1 harg1 arg2 harg2 arg3 harg3 arg4 harg4 arg5 harg5 arg6 harg6 arg7 harg7 hc0 hc1 x0 x1 x2 x3 x4 xs0).2.1)

end CaseC

end Cases

def outsA (c : Dev nD) (t : Fin cfg3.N) (h0 : t.val % 10 = 0) (h1 : ¬t.val % 10 = 9) : Vec F S8x64 .f32 × Vec F S8x128 .f32 :=
  (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t),
    sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t))

def outsB (c : Dev nD) (t : Fin cfg3.N) (h0 : ¬t.val % 10 = 0) (h1 : ¬t.val % 10 = 9) (xs : Vec F S8x128 .f32) : Vec F S8x64 .f32 × Vec F S8x128 .f32 :=
  (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs,
    sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs)

def outsC (c : Dev nD) (t : Fin cfg3.N) (h0 : ¬t.val % 10 = 0) (h1 : t.val % 10 = 9) (xs : Vec F S8x128 .f32) : Vec F S8x64 .f32 × Vec F S8x128 .f32 :=
  (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) xs,
    sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) xs)

/-- What the output block and the accumulator hold after point n: the case its position selects, over what point n - 1 left in the accumulator. -/
def outsAt3 (c : Dev nD) : (n : ℕ) → n < cfg3.N → Vec F S8x64 .f32 × Vec F S8x128 .f32
  | 0, hn => outsA V c ⟨0, hn⟩ (Nat.zero_mod _) (fun h => by (try dsimp only at h); omega)
  | n + 1, hn =>
    if h0 : (n + 1) % 10 = 0 then
      if h1 : (n + 1) % 10 = 9 then False.elim (by omega) else outsA V c ⟨n + 1, hn⟩ h0 h1
    else
      if h1 : (n + 1) % 10 = 9 then outsC V c ⟨n + 1, hn⟩ h0 h1 (outsAt3 c n (Nat.lt_of_succ_lt hn)).2
      else outsB V c ⟨n + 1, hn⟩ h0 h1 (outsAt3 c n (Nat.lt_of_succ_lt hn)).2

theorem outsAt3_A (c : Dev nD) (t : Fin cfg3.N) (h0 : t.val % 10 = 0) (h1 : ¬t.val % 10 = 9) :
    outsAt3 V c t.val t.isLt = outsA V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 10 = 0) (h1 : ¬t.val % 10 = 9) :
    outsAt3 V c t.val t.isLt = outsB V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 10 = 0) (h1 : t.val % 10 = 9) :
    outsAt3 V c t.val t.isLt = outsC V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The invariant before point n: the accumulator at what point n - 1 left (at anything before the first point). -/
def PhiS (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc (c : Dev nD) (t : Fin cfg3.N) :
    (dat3 V c).Φ t.castSucc = PhiS V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body's triple at any point, case by case; the stores cover the accumulator, so it is handed on at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS V c (t.val + 1) t.isLt from rfl, PhiS_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  have hN : t.val < 10 := lt_of_lt_of_eq t.isLt (show cfg3.N = 10 from N_3)
  by_cases h0 : t.val % 10 = 0
  · by_cases h1 : t.val % 10 = 9
    · exfalso; omega
    ·
      rw [Dat.leavesExact_idle (dat3 V c) 5 t (idleAt3_5_A t ((hcond3_0 t).mpr h0) (fun h => h1 ((hcond3_1 t).mp h))) (noFlush3_5_A t ((hcond3_0 t).mpr h0) (fun h => h1 ((hcond3_1 t).mp h)))]
      rw [outsAt3_A V c t h0 h1]
      unfold outsA sout3_A_0; (try dsimp only)
      by_cases hz : t.val = 0
      · rw [PhiS_castSucc V c t, PhiS_zero V c _ _ hz, PhiA3_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 10 = 9
    ·
      rw [show (dat3 V c).leavesExact 5 t = owns (c : Thread nD τ) (ms3_5 t) fullShare ((dat3 V c).after 5 t) from by
        unfold Dat.leavesExact; rw [liveAt3_5_C t (fun h => h0 ((hcond3_0 t).mp h)) ((hcond3_1 t).mpr h1)], after3_5]
      rw [outsAt3_C V c t h0 h1]
      unfold outsC out3_C_5 sout3_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover3_C_5 c _ _ _ _ _ _ _ _ _ _ _ _ _ _ _ _ _ _ _ _ _ _ _)
    ·
      rw [Dat.leavesExact_idle (dat3 V c) 5 t (idleAt3_5_B t (fun h => h0 ((hcond3_0 t).mp h)) (fun h => h1 ((hcond3_1 t).mp h))) (noFlush3_5_B t (fun h => h0 ((hcond3_0 t).mp h)) (fun h => h1 ((hcond3_1 t).mp h)))]
      rw [outsAt3_B V c t h0 h1]
      unfold outsB sout3_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 10 := N_3; omega)

end Region3

end Cert.KernelIdeal.Hand

end
-- ==== Proof.KernelIdealRun.lean ====
import proofs.«416290_j3246995276182_1_alg».proof.Proof.KernelIdealLaunchP
import proofs.«416290_j3246995276182_1_alg».proof.Proof.Gen.KernelIdeal.Skeleton
import proofs.«416290_j3246995276182_1_alg».proof.Proof.Gen.KernelIdeal.Points
import proofs.«416290_j3246995276182_1_alg».proof.Proof.KernelIdealReg0
import proofs.«416290_j3246995276182_1_alg».proof.Proof.KernelIdealReg1
import proofs.«416290_j3246995276182_1_alg».proof.Proof.KernelIdealReg2
import proofs.«416290_j3246995276182_1_alg».proof.Proof.KernelIdealReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
abbrev hostOps0_W : List (Ref sig .tc) := [main_v0, main_v1, main_v2, main_v3, main_v4]
abbrev hostOps1_W : List (Ref sig .tc) := [main_cst, main_v6, main_cst_0, main_v7, main_v8, main_v9, main_c, main_v10, main_v11, main_c_1, main_v12, main_v13, main_v14, main_v15, main_v16, main_cst_2, main_v17, main_v18, main_v19, main_v20, main_v21]
abbrev hostOps2_W : List (Ref sig .tc) := [main_c_3, main_v23, main_v24, main_c_4, main_v25, main_v26, main_v27, main_v28, main_v29, main_cst_5, main_v30, main_v31, main_v32, main_v33, main_v34]
abbrev hostOps3_W : List (Ref sig .tc) := [main_v36, main_v37, main_v38, main_v39, main_v40, main_cst_6, main_v41, main_cst_7, main_v42, main_v43, main_v44, main_v45, main_v46, main_v47, main_cst_8, main_v48, main_v49, main_v50, main_v51, main_v52, main_v53]
/-- Each host operation writes its one result, a reference of its stretch's list. -/
theorem hostOps_writes :
    ((hostOps0 : List (HloOp τ sig (Elt F))).Forall fun op => op.writes ⊆ (hostOps0_W.map (Proc.devRef (τ := τ) .tc)).toFinset)
    ∧ ((hostOps1 : List (HloOp τ sig (Elt F))).Forall fun op => op.writes ⊆ (hostOps1_W.map (Proc.devRef (τ := τ) .tc)).toFinset)
    ∧ ((hostOps2 : List (HloOp τ sig (Elt F))).Forall fun op => op.writes ⊆ (hostOps2_W.map (Proc.devRef (τ := τ) .tc)).toFinset)
    ∧ ((hostOps3 : List (HloOp τ sig (Elt F))).Forall fun op => op.writes ⊆ (hostOps3_W.map (Proc.devRef (τ := τ) .tc)).toFinset) := by
  simp only [List.Forall]
  repeat' constructor
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

abbrev W0 : Dev nD → Valuation τ sig (Elt F) := fun c b => (s₀ m ρ).mem ((c : Dev nD), b)
/-- A region leaves a buffer that is no output window's array of it as it found it: either none of its arrays, or an input's. -/
theorem exit_keep {p : Fin 4} (lf : Pipeline.LaunchFacts (nD := nD) (τ := τ) cfgs p) (c : Dev nD) (W : Valuation τ sig (Elt F))
    (d : Dat τ (Elt F) Unit ℕ (UR sig nD τ) ℕ (cfgs p) c) (hA : ∀ w, d.A w = W (Proc.devRef .tc (Pipeline.arrRef (cfgs p).spec w)))
    (b : Ref sig .tc) (hb : ∀ w, Pipeline.arrRef (cfgs p).spec w = b → ((cfgs p).win w).isOut = false) :
    Pipeline.withArrays (cfgs p).spec c W (fun w => d.arrAt w (cfgs p).N) (Proc.devRef .tc b) = W (Proc.devRef .tc b) := by
  by_cases h : ∃ w, Pipeline.arrRef (cfgs p).spec w = b
  · obtain ⟨w, rfl⟩ := h
    exact (Pipeline.withArrays_arr _ lf.win.arr_inj c _ _ w).trans ((d.arrAt_in w (hb w rfl) _).trans (hA w))
  · exact Pipeline.withArrays_of_ne _ c _ _ b fun w e => h ⟨w, e⟩
abbrev W1 : Dev nD → Valuation τ sig (Elt F) := fun c => StableHlo.after hostOps0 (W0 m ρ c)
abbrev Vw1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (Vw1 m ρ) c).arrAt w cfg0.N
theorem W2_arr (c : Dev nD) (w : Fin cfg0.W) :
    W2 m ρ c (Proc.devRef .tc (Pipeline.arrRef spec0 w)) = (dat0 (Vw1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W1_of (c : Dev nD) (r : Ref sig .tc) (h : r ∉ hostOps0_W) : W1 m ρ c (Proc.devRef .tc r) = W0 m ρ c (Proc.devRef .tc r) :=
  StableHlo.after_of_writes_sub hostOps0 _ hostOps_writes.1 h
abbrev W3 : Dev nD → Valuation τ sig (Elt F) := fun c => StableHlo.after hostOps1 (W2 m ρ c)
abbrev Vw3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (Vw3 m ρ) c).arrAt w cfg1.N
theorem W4_arr (c : Dev nD) (w : Fin cfg1.W) :
    W4 m ρ c (Proc.devRef .tc (Pipeline.arrRef spec1 w)) = (dat1 (Vw3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
theorem W3_of (c : Dev nD) (r : Ref sig .tc) (h : r ∉ hostOps1_W) : W3 m ρ c (Proc.devRef .tc r) = W2 m ρ c (Proc.devRef .tc r) :=
  StableHlo.after_of_writes_sub hostOps1 _ hostOps_writes.2.1 h
abbrev W5 : Dev nD → Valuation τ sig (Elt F) := fun c => StableHlo.after hostOps2 (W4 m ρ c)
abbrev Vw5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (Vw5 m ρ) c).arrAt w cfg2.N
theorem W6_arr (c : Dev nD) (w : Fin cfg2.W) :
    W6 m ρ c (Proc.devRef .tc (Pipeline.arrRef spec2 w)) = (dat2 (Vw5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
theorem W5_of (c : Dev nD) (r : Ref sig .tc) (h : r ∉ hostOps2_W) : W5 m ρ c (Proc.devRef .tc r) = W4 m ρ c (Proc.devRef .tc r) :=
  StableHlo.after_of_writes_sub hostOps2 _ hostOps_writes.2.2.1 h
abbrev W7 : Dev nD → Valuation τ sig (Elt F) := fun c => StableHlo.after hostOps3 (W6 m ρ c)
abbrev Vw7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (Vw7 m ρ) c).arrAt w cfg3.N
theorem W8_arr (c : Dev nD) (w : Fin cfg3.W) :
    W8 m ρ c (Proc.devRef .tc (Pipeline.arrRef spec3 w)) = (dat3 (Vw7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
theorem W7_of (c : Dev nD) (r : Ref sig .tc) (h : r ∉ hostOps3_W) : W7 m ρ c (Proc.devRef .tc r) = W6 m ρ c (Proc.devRef .tc r) :=
  StableHlo.after_of_writes_sub hostOps3 _ hostOps_writes.2.2.2 h

abbrev args : List (Ref sig .tc) :=
  [main_arg0, main_arg1, main_arg2, main_arg3, main_arg4, main_arg5, main_arg6, main_arg7, main_arg8, main_arg9, main_arg10, main_arg11, main_arg12, main_arg13, main_arg14]

/-- No host operation writes an argument array and no region has one as an output: at every boundary each is as launched. -/
theorem W1_args (c : Dev nD) (b : Ref sig .tc) (hb : b ∈ args) : W1 m ρ c (Proc.devRef .tc b) = m ((c : Thread nD τ).loc b) :=
  W1_of m ρ c b ((by decide : ∀ b ∈ args, b ∉ hostOps0_W) b hb)
theorem W2_args (c : Dev nD) (b : Ref sig .tc) (hb : b ∈ args) : W2 m ρ c (Proc.devRef .tc b) = m ((c : Thread nD τ).loc b) :=
  (exit_keep launch0 c _ _ (A_eq0 (Vw1 m ρ) c) b ((by decide : ∀ b ∈ args, ∀ w, Pipeline.arrRef spec0 w = b → (cfg0.win w).isOut = false) b hb)).trans (W1_args m ρ c b hb)
theorem W3_args (c : Dev nD) (b : Ref sig .tc) (hb : b ∈ args) : W3 m ρ c (Proc.devRef .tc b) = m ((c : Thread nD τ).loc b) :=
  (W3_of m ρ c b ((by decide : ∀ b ∈ args, b ∉ hostOps1_W) b hb)).trans (W2_args m ρ c b hb)
theorem W4_args (c : Dev nD) (b : Ref sig .tc) (hb : b ∈ args) : W4 m ρ c (Proc.devRef .tc b) = m ((c : Thread nD τ).loc b) :=
  (exit_keep launch1 c _ _ (A_eq1 (Vw3 m ρ) c) b ((by decide : ∀ b ∈ args, ∀ w, Pipeline.arrRef spec1 w = b → (cfg1.win w).isOut = false) b hb)).trans (W3_args m ρ c b hb)
theorem W5_args (c : Dev nD) (b : Ref sig .tc) (hb : b ∈ args) : W5 m ρ c (Proc.devRef .tc b) = m ((c : Thread nD τ).loc b) :=
  (W5_of m ρ c b ((by decide : ∀ b ∈ args, b ∉ hostOps2_W) b hb)).trans (W4_args m ρ c b hb)
theorem W6_args (c : Dev nD) (b : Ref sig .tc) (hb : b ∈ args) : W6 m ρ c (Proc.devRef .tc b) = m ((c : Thread nD τ).loc b) :=
  (exit_keep launch2 c _ _ (A_eq2 (Vw5 m ρ) c) b ((by decide : ∀ b ∈ args, ∀ w, Pipeline.arrRef spec2 w = b → (cfg2.win w).isOut = false) b hb)).trans (W5_args m ρ c b hb)
theorem W7_args (c : Dev nD) (b : Ref sig .tc) (hb : b ∈ args) : W7 m ρ c (Proc.devRef .tc b) = m ((c : Thread nD τ).loc b) :=
  (W7_of m ρ c b ((by decide : ∀ b ∈ args, b ∉ hostOps3_W) b hb)).trans (W6_args m ρ c b hb)
theorem W8_args (c : Dev nD) (b : Ref sig .tc) (hb : b ∈ args) : W8 m ρ c (Proc.devRef .tc b) = m ((c : Thread nD τ).loc b) :=
  (exit_keep launch3 c _ _ (A_eq3 (Vw7 m ρ) c) b ((by decide : ∀ b ∈ args, ∀ w, Pipeline.arrRef spec3 w = b → (cfg3.win w).isOut = false) b hb)).trans (W7_args m ρ c b hb)

abbrev admH : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) admH p) c
  | ⟨0, _⟩ => fun c => dat0 (Vw1 m ρ) c
  | ⟨1, _⟩ => fun c => dat1 (Vw3 m ρ) c
  | ⟨2, _⟩ => fun c => dat2 (Vw5 m ρ) c
  | ⟨3, _⟩ => fun c => dat3 (Vw7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- A kernel region as an item of @main: entered with every buffer at `Wi`, left with its windows' arrays at their final contents and every other buffer as entered. -/
def reg (p : Fin 4) (lf : Pipeline.LaunchFacts (nD := nD) (τ := τ) cfgs p) (Wi : Dev nD → Valuation τ sig (Elt F))
    (hb : ∀ c, Pipeline.BodyObligationLoose (pdats m ρ p c) (defs₀ (F := F)) 𝒱₀ () Set.univ)
    (hq : ∀ c w, (pdats m ρ p c).q w = fullShare) (ho : ∀ c t, (pdats m ρ p c).owed t = 0) (hr : ∀ c, (pdats m ρ p c).recorded 0 = Set.univ)
    (hA : ∀ c w, (pdats m ρ p c).A w = Wi c (Proc.devRef .tc (Pipeline.arrRef (cfgs p).spec w)))
    (hi : ∀ c, (Pipeline.ΦA (cfgs p).spec c : sProp 𝕄) ⊢ (pdats m ρ p c).Φ 0)
    (hl : ∀ c, (pdats m ρ p c).Φ (Fin.last _) ⊢ (Pipeline.ΦA (cfgs p).spec c : sProp 𝕄)) :
    Pipeline.RegionSeg (pcfgs (F := F)) admH (pdats m ρ) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) admH (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (hr c ▸ trivial)
      rw [ho c 0]; iexact HO
    isplitl [Hp]; · iexact Hp
    iexact Hrest
  hin c := by
    refine .trans ?_ (hi c); unfold Pipeline.ΦA
    iintro ⟨Hp, -, Hr⟩
    isplitl [Hr]; · iexact Hr
    iexact Hp
  hout c := by
    rw [Pipeline.ownSems0_none]; refine (hl c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      lf.win lf.arr_whole c (pdats m ρ) ((pdats m ρ p c).share_full (hq c)) (fun b => Wi c b)
      (fun b => Pipeline.withArrays (cfgs p).spec c (Wi c) (fun w => (pdats m ρ p c).arrAt w (cfgs p).N) b)
      ((pdats m ρ p c).arrAt · (cfgs p).N)
      (fun w => (Pipeline.withArrays_arr (cfgs p).spec lf.win.arr_inj c (Wi c) (fun w => (pdats m ρ p c).arrAt w (cfgs p).N) w).symm)
      (fun b hb => Pipeline.withArrays_of_ne (cfgs p).spec c (Wi c) (fun w => (pdats m ρ p c).arrAt w (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c]
    icases HO with ⟨%W, -, HO⟩; iexists W; iexact HO

/-- @main: a stretch of host operations, then a kernel region, four times. -/
abbrev items : List (Pipeline.Seg (pcfgs (F := F)) admH (pdats m ρ) () defs₀ 𝒱₀ L lv) :=
  [ .host (hseg hostOps0 hostOps0_sub hostOps0_fresh (W0 m ρ)),
    .region (reg m ρ 0 launch0 (W1 m ρ) (fun c => (body_obligation0 (Vw1 m ρ) c).loose) (fun _ _ => rfl) (fun _ _ => rfl) (fun _ => rfl) (fun _ _ => rfl) (fun _ => .rfl) (fun _ => .rfl)),
    .host (hseg hostOps1 hostOps1_sub hostOps1_fresh (W2 m ρ)),
    .region (reg m ρ 1 launch1 (W3 m ρ) (fun c => (body_obligation1 (Vw3 m ρ) c).loose) (fun _ _ => rfl) (fun _ _ => rfl) (fun _ => rfl) (fun _ _ => rfl) (fun _ => .rfl) (fun _ => .rfl)),
    .host (hseg hostOps2 hostOps2_sub hostOps2_fresh (W4 m ρ)),
    .region (reg m ρ 2 launch2 (W5 m ρ) (fun c => (body_obligation2 (Vw5 m ρ) c).loose) (fun _ _ => rfl) (fun _ _ => rfl) (fun _ => rfl) (fun _ _ => rfl) (fun _ => .rfl) (fun _ => .rfl)),
    .host (hseg hostOps3 hostOps3_sub hostOps3_fresh (W6 m ρ)),
    .region (reg m ρ 3 launch3 (W7 m ρ) (fun c => (body_obligation3 (Vw7 m ρ) c).loose) (fun _ _ => rfl) (fun _ _ => rfl) (fun _ => rfl) (fun _ _ => rfl) (hin3 (Vw7 m ρ)) (hout3 (Vw7 m ρ))) ]
theorem main_run (c : Dev nD) : main (F := F) c = Pipeline.Seg.run (items m ρ) := (main_chain c).trans (by chain_rfl)

set_option backward.isDefEq.respectTransparency.types false in
/-- Every weakly fair execution of @main terminates without a fault, the result array at what region 3 writes back, every argument array as launched. -/
theorem run_all : θ_run defs (onTc (τ := τ) (main (F := F))) ⟨m, fun _ => 0, ρ⟩ (fun r => ∀ c : Dev nD,
      r.2.mem ((c : Thread nD τ).loc main_v54) = W8 m ρ c (Proc.devRef .tc main_v54)
      ∧ ∀ b ∈ args, r.2.mem ((c : Thread nD τ).loc b) = m ((c : Thread nD τ).loc b)) :=
  Pipeline.θ_run_regions_kit (pcfgs (F := F)) admH (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => ⟨h c _ (mem_uc main_v54 (by decide)), fun b hb =>
      (h c _ (mem_uc b ((by decide : ∀ b ∈ args, ¬(Proc.devRef .tc b : DevRef τ sig).isScoped) b hb))).trans (W8_args m ρ c b hb)⟩)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals of extents a x b. -/
abbrev Arr (a b : ℕ) : Type := (⟨2, ![a, b]⟩ : Shape).Idx → EReal

abbrev one : EReal := Ideal.ofBits .f32 0x3F800000#32
abbrev zero : EReal := Ideal.ofBits .f32 0x00000000#32

/-- Entry (r, j): the inner product of row r of x with row j of w, plus b (0, j). -/
def embed (x : Arr 50000 300) (w : Arr 128 300) (b : Arr 1 128) : Arr 50000 128 :=
  fun i => (∑ k : Fin 300, x (ix2 (i 0) k) * w (ix2 (i 1) k)) + b (ix2 0 (i 1))

/-- Entry (r, j): the larger of zero and (sum over k of agg (r, k) / max (deg (r, 0)) 1 * wl (j, k)) + bl (0, j) + (sum over k of h (r, k) * wr (j, k)). -/
def sage (agg : Arr 50000 128) (deg : Arr 50000 1) (h : Arr 50000 128) (wl : Arr 128 128) (bl : Arr 1 128) (wr : Arr 128 128) :
    Arr 50000 128 :=
  fun i => max (((∑ k : Fin 128, Ideal.div (agg (ix2 (i 0) k)) (max (deg (ix2 (i 0) 0)) one) * wl (ix2 (i 1) k)) + bl (ix2 0 (i 1)))
      + ∑ k : Fin 128, h (ix2 (i 0) k) * wr (ix2 (i 1) k)) zero

/-- Entry (g, k): the sum, over the rows r whose graph id is g, of h (r, k) * w (r, 0); an id that is none of 0 .. 7 adds to no entry. -/
def pooled (h : Arr 50000 128) (w : Arr 50000 1) (batch : (⟨2, ![50000, 1]⟩ : Shape).Idx → BitVec 32) : Arr 8 128 :=
  fun i => ∑ r : Fin 50000, if batch (ix2 r 0) = BitVec.ofNat 32 (i 0).val then h (ix2 r (i 1)) * w (ix2 r 0) else 0

/-- Entry (g, j): the inner product of row g of the pooled array with row j of wout, plus bout (0, j). -/
def pool (h : Arr 50000 128) (w : Arr 50000 1) (batch : (⟨2, ![50000, 1]⟩ : Shape).Idx → BitVec 32) (wout : Arr 64 128) (bout : Arr 1 64) :
    Arr 8 64 :=
  fun i => (∑ k : Fin 128, pooled h w batch (ix2 (i 0) k) * wout (ix2 (i 1) k)) + bout (ix2 0 (i 1))

end Cert.Spec

end
-- ==== Proof.KernelIdealPay.lean ====
import proofs.«416290_j3246995276182_1_alg».proof.Proof.Gen.KernelIdeal.Skeleton
import proofs.«416290_j3246995276182_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem proj_lhs_0 (i : S8x64.Idx) (c : dot_S8x128_S64x128_S8x64_1_1_0_0_n_n.contr.Idx) :
    (dot_S8x128_S64x128_S8x64_1_1_0_0_n_n.lhsIdx i c 0).val = (i 0).val := by
  unfold DotDims.lhsIdx
  rw [dif_neg (show ¬(0 : Fin S8x128.rank) ∈ dot_S8x128_S64x128_S8x64_1_1_0_0_n_n.lhsBatch by decide),
    dif_pos (show (0 : Fin S8x128.rank) ∈ dot_S8x128_S64x128_S8x64_1_1_0_0_n_n.lhsNonContracting by decide)]
  rfl

theorem proj_lhs_1 (i : S8x64.Idx) (c : dot_S8x128_S64x128_S8x64_1_1_0_0_n_n.contr.Idx) :
    (dot_S8x128_S64x128_S8x64_1_1_0_0_n_n.lhsIdx i c 1).val = (c ⟨0, by decide⟩).val :=
  dot_S8x128_S64x128_S8x64_1_1_0_0_n_n.lhsIdx_val_of_single rfl i c

theorem proj_rhs_0 (i : S8x64.Idx) (c : dot_S8x128_S64x128_S8x64_1_1_0_0_n_n.contr.Idx) :
    (dot_S8x128_S64x128_S8x64_1_1_0_0_n_n.rhsIdx i c 0).val = (i 1).val := by
  unfold DotDims.rhsIdx
  rw [dif_neg (show ¬(0 : Fin S64x128.rank) ∈ dot_S8x128_S64x128_S8x64_1_1_0_0_n_n.rhsBatch by decide),
    dif_pos (show (0 : Fin S64x128.rank) ∈ dot_S8x128_S64x128_S8x64_1_1_0_0_n_n.rhsNonContracting by decide)]
  rfl

theorem proj_rhs_1 (i : S8x64.Idx) (c : dot_S8x128_S64x128_S8x64_1_1_0_0_n_n.contr.Idx) :
    (dot_S8x128_S64x128_S8x64_1_1_0_0_n_n.rhsIdx i c 1).val = (c ⟨0, by decide⟩).val :=
  dot_S8x128_S64x128_S8x64_1_1_0_0_n_n.rhsIdx_val_of_single rfl i c

/-- The product into a zero accumulator, at (g, j), is the inner product of row g of x with row j of y. -/
theorem proj_matmul_apply {φ₁ φ₂ : FTy} (x : FVec Ideal S8x128 φ₁) (y : FVec Ideal S64x128 φ₂)
    (g : Fin 8) (j : Fin 64) :
    FloatOps.matmul dot_S8x128_S64x128_S8x64_1_1_0_0_n_n none x y (constant S8x64 .f32 0x00000000#32) (ix2 g j)
      = ∑ k : Fin 128, x (ix2 g k) * y (ix2 j k) := by
  rw [Ideal.matmul_constant_zero_apply,
    ← Equiv.sum_comp (ValueIdx.contrEquiv1 dot_S8x128_S64x128_S8x64_1_1_0_0_n_n 128 rfl rfl).symm]
  refine Finset.sum_congr rfl fun k _ => ?_
  have hk := ValueIdx.contrEquiv1_symm_val dot_S8x128_S64x128_S8x64_1_1_0_0_n_n 128 rfl rfl k
  have el : dot_S8x128_S64x128_S8x64_1_1_0_0_n_n.lhsIdx (ix2 g j)
      ((ValueIdx.contrEquiv1 dot_S8x128_S64x128_S8x64_1_1_0_0_n_n 128 rfl rfl).symm k) = ix2 g k :=
    funext fun ax => Fin.ext (by
      match ax with
      | ⟨0, _⟩ => exact proj_lhs_0 _ _
      | ⟨1, _⟩ => exact (proj_lhs_1 _ _).trans hk)
  have er : dot_S8x128_S64x128_S8x64_1_1_0_0_n_n.rhsIdx (ix2 g j)
      ((ValueIdx.contrEquiv1 dot_S8x128_S64x128_S8x64_1_1_0_0_n_n 128 rfl rfl).symm k) = ix2 j k :=
    funext fun ax => Fin.ext (by
      match ax with
      | ⟨0, _⟩ => exact proj_rhs_0 _ _
      | ⟨1, _⟩ => exact (proj_rhs_1 _ _).trans hk)
  rw [el, er]

/-- The projection's value at (g, j): the inner product of the accumulator's row g with the output weight's row j, plus the bias entry. -/
theorem pay3_out (v27 : Vec Ideal S8x128 .f32) (v29 : Vec Ideal S64x128 .f32) (v32 : Vec Ideal S1x64 .f32)
    (g : Fin 8) (j : Fin 64) :
    k3_pay3 (F := Ideal) v27 v29 v32 (ix2 g j)
      = (∑ k : Fin 128, v27 (ix2 g k) * v29 (ix2 j k)) + v32 (ix2 0 j) := by
  unfold k3_pay3
  show FloatOps.addf (FloatOps.matmul dot_S8x128_S64x128_S8x64_1_1_0_0_n_n none _ _
    (constant S8x64 .f32 0x00000000#32) (ix2 g j)) _ = _
  rw [proj_matmul_apply, shapeCast_self, broadcastTo_1b_ab_apply, Ideal.addf_def]
  rfl

theorem embed_lhs_0 (i : S5000x128.Idx) (c : dot_S5000x300_S128x300_S5000x128_1_1_0_0_n_n.contr.Idx) :
    (dot_S5000x300_S128x300_S5000x128_1_1_0_0_n_n.lhsIdx i c 0).val = (i 0).val := by
  unfold DotDims.lhsIdx
  rw [dif_neg (show ¬(0 : Fin S5000x300.rank) ∈ dot_S5000x300_S128x300_S5000x128_1_1_0_0_n_n.lhsBatch by decide),
    dif_pos (show (0 : Fin S5000x300.rank) ∈ dot_S5000x300_S128x300_S5000x128_1_1_0_0_n_n.lhsNonContracting by decide)]
  rfl

theorem embed_lhs_1 (i : S5000x128.Idx) (c : dot_S5000x300_S128x300_S5000x128_1_1_0_0_n_n.contr.Idx) :
    (dot_S5000x300_S128x300_S5000x128_1_1_0_0_n_n.lhsIdx i c 1).val = (c ⟨0, by decide⟩).val :=
  dot_S5000x300_S128x300_S5000x128_1_1_0_0_n_n.lhsIdx_val_of_single rfl i c

theorem embed_rhs_0 (i : S5000x128.Idx) (c : dot_S5000x300_S128x300_S5000x128_1_1_0_0_n_n.contr.Idx) :
    (dot_S5000x300_S128x300_S5000x128_1_1_0_0_n_n.rhsIdx i c 0).val = (i 1).val := by
  unfold DotDims.rhsIdx
  rw [dif_neg (show ¬(0 : Fin S128x300.rank) ∈ dot_S5000x300_S128x300_S5000x128_1_1_0_0_n_n.rhsBatch by decide),
    dif_pos (show (0 : Fin S128x300.rank) ∈ dot_S5000x300_S128x300_S5000x128_1_1_0_0_n_n.rhsNonContracting by decide)]
  rfl

theorem embed_rhs_1 (i : S5000x128.Idx) (c : dot_S5000x300_S128x300_S5000x128_1_1_0_0_n_n.contr.Idx) :
    (dot_S5000x300_S128x300_S5000x128_1_1_0_0_n_n.rhsIdx i c 1).val = (c ⟨0, by decide⟩).val :=
  dot_S5000x300_S128x300_S5000x128_1_1_0_0_n_n.rhsIdx_val_of_single rfl i c

theorem embed_matmul_apply {φ₁ φ₂ : FTy} (x : FVec Ideal S5000x300 φ₁) (y : FVec Ideal S128x300 φ₂)
    (p : Fin 5000) (q : Fin 128) :
    FloatOps.matmul dot_S5000x300_S128x300_S5000x128_1_1_0_0_n_n none x y (constant S5000x128 .f32 0x00000000#32) (ix2 p q)
      = ∑ k : Fin 300, x (ix2 p k) * y (ix2 q k) := by
  rw [Ideal.matmul_constant_zero_apply,
    ← Equiv.sum_comp (ValueIdx.contrEquiv1 dot_S5000x300_S128x300_S5000x128_1_1_0_0_n_n 300 rfl rfl).symm]
  refine Finset.sum_congr rfl fun k _ => ?_
  have hk := ValueIdx.contrEquiv1_symm_val dot_S5000x300_S128x300_S5000x128_1_1_0_0_n_n 300 rfl rfl k
  have el : dot_S5000x300_S128x300_S5000x128_1_1_0_0_n_n.lhsIdx (ix2 p q)
      ((ValueIdx.contrEquiv1 dot_S5000x300_S128x300_S5000x128_1_1_0_0_n_n 300 rfl rfl).symm k) = ix2 p k :=
    funext fun ax => Fin.ext (by
      match ax with
      | ⟨0, _⟩ => exact embed_lhs_0 _ _
      | ⟨1, _⟩ => exact (embed_lhs_1 _ _).trans hk)
  have er : dot_S5000x300_S128x300_S5000x128_1_1_0_0_n_n.rhsIdx (ix2 p q)
      ((ValueIdx.contrEquiv1 dot_S5000x300_S128x300_S5000x128_1_1_0_0_n_n 300 rfl rfl).symm k) = ix2 q k :=
    funext fun ax => Fin.ext (by
      match ax with
      | ⟨0, _⟩ => exact embed_rhs_0 _ _
      | ⟨1, _⟩ => exact (embed_rhs_1 _ _).trans hk)
  rw [el, er]

/-- The embedding body's value at (p, j): the inner product of the block's row p with the weight's row j, plus the bias entry. -/
theorem pay0_apply (v0 : Vec Ideal S5000x300 .f32) (v2 : Vec Ideal S128x300 .f32) (v5 : Vec Ideal S1x128 .f32)
    (p : Fin 5000) (q : Fin 128) :
    k0_pay1 (F := Ideal) v0 v2 v5 (ix2 p q)
      = (∑ k : Fin 300, v0 (ix2 p k) * v2 (ix2 q k)) + v5 (ix2 0 q) := by
  unfold k0_pay1
  show FloatOps.addf (FloatOps.matmul dot_S5000x300_S128x300_S5000x128_1_1_0_0_n_n none _ _
    (constant S5000x128 .f32 0x00000000#32) (ix2 p q)) _ = _
  rw [embed_matmul_apply, shapeCast_self, broadcastTo_1b_ab_apply, Ideal.addf_def]
  rfl

theorem sage_lhs_0 (i : S5000x128.Idx) (c : dot_S5000x128_S128x128_S5000x128_1_1_0_0_n_n.contr.Idx) :
    (dot_S5000x128_S128x128_S5000x128_1_1_0_0_n_n.lhsIdx i c 0).val = (i 0).val := by
  unfold DotDims.lhsIdx
  rw [dif_neg (show ¬(0 : Fin S5000x128.rank) ∈ dot_S5000x128_S128x128_S5000x128_1_1_0_0_n_n.lhsBatch by decide),
    dif_pos (show (0 : Fin S5000x128.rank) ∈ dot_S5000x128_S128x128_S5000x128_1_1_0_0_n_n.lhsNonContracting by decide)]
  rfl

theorem sage_lhs_1 (i : S5000x128.Idx) (c : dot_S5000x128_S128x128_S5000x128_1_1_0_0_n_n.contr.Idx) :
    (dot_S5000x128_S128x128_S5000x128_1_1_0_0_n_n.lhsIdx i c 1).val = (c ⟨0, by decide⟩).val :=
  dot_S5000x128_S128x128_S5000x128_1_1_0_0_n_n.lhsIdx_val_of_single rfl i c

theorem sage_rhs_0 (i : S5000x128.Idx) (c : dot_S5000x128_S128x128_S5000x128_1_1_0_0_n_n.contr.Idx) :
    (dot_S5000x128_S128x128_S5000x128_1_1_0_0_n_n.rhsIdx i c 0).val = (i 1).val := by
  unfold DotDims.rhsIdx
  rw [dif_neg (show ¬(0 : Fin S128x128.rank) ∈ dot_S5000x128_S128x128_S5000x128_1_1_0_0_n_n.rhsBatch by decide),
    dif_pos (show (0 : Fin S128x128.rank) ∈ dot_S5000x128_S128x128_S5000x128_1_1_0_0_n_n.rhsNonContracting by decide)]
  rfl

theorem sage_rhs_1 (i : S5000x128.Idx) (c : dot_S5000x128_S128x128_S5000x128_1_1_0_0_n_n.contr.Idx) :
    (dot_S5000x128_S128x128_S5000x128_1_1_0_0_n_n.rhsIdx i c 1).val = (c ⟨0, by decide⟩).val :=
  dot_S5000x128_S128x128_S5000x128_1_1_0_0_n_n.rhsIdx_val_of_single rfl i c

theorem sage_matmul_apply {φ₁ φ₂ : FTy} (x : FVec Ideal S5000x128 φ₁) (y : FVec Ideal S128x128 φ₂)
    (p : Fin 5000) (q : Fin 128) :
    FloatOps.matmul dot_S5000x128_S128x128_S5000x128_1_1_0_0_n_n none x y (constant S5000x128 .f32 0x00000000#32) (ix2 p q)
      = ∑ k : Fin 128, x (ix2 p k) * y (ix2 q k) := by
  rw [Ideal.matmul_constant_zero_apply,
    ← Equiv.sum_comp (ValueIdx.contrEquiv1 dot_S5000x128_S128x128_S5000x128_1_1_0_0_n_n 128 rfl rfl).symm]
  refine Finset.sum_congr rfl fun k _ => ?_
  have hk := ValueIdx.contrEquiv1_symm_val dot_S5000x128_S128x128_S5000x128_1_1_0_0_n_n 128 rfl rfl k
  have el : dot_S5000x128_S128x128_S5000x128_1_1_0_0_n_n.lhsIdx (ix2 p q)
      ((ValueIdx.contrEquiv1 dot_S5000x128_S128x128_S5000x128_1_1_0_0_n_n 128 rfl rfl).symm k) = ix2 p k :=
    funext fun ax => Fin.ext (by
      match ax with
      | ⟨0, _⟩ => exact sage_lhs_0 _ _
      | ⟨1, _⟩ => exact (sage_lhs_1 _ _).trans hk)
  have er : dot_S5000x128_S128x128_S5000x128_1_1_0_0_n_n.rhsIdx (ix2 p q)
      ((ValueIdx.contrEquiv1 dot_S5000x128_S128x128_S5000x128_1_1_0_0_n_n 128 rfl rfl).symm k) = ix2 q k :=
    funext fun ax => Fin.ext (by
      match ax with
      | ⟨0, _⟩ => exact sage_rhs_0 _ _
      | ⟨1, _⟩ => exact (sage_rhs_1 _ _).trans hk)
  rw [el, er]

/-- The convolution body's value at (p, j): the rectified sum of the two inner products and the bias entry. -/
theorem pay1_apply (v0 : Vec Ideal S5000x1 .f32) (v2 v8 : Vec Ideal S5000x128 .f32)
    (v12 v14 : Vec Ideal S128x128 .f32) (v18 : Vec Ideal S1x128 .f32) (p : Fin 5000) (q : Fin 128) :
    k1_pay1 (F := Ideal) v0 v2 v8 v12 v14 v18 (ix2 p q)
      = max (((∑ k : Fin 128, Ideal.div (v2 (ix2 p k)) (max (v0 (ix2 p 0)) Spec.one) * v12 (ix2 q k))
              + v18 (ix2 0 q))
            + ∑ k : Fin 128, v8 (ix2 p k) * v14 (ix2 q k)) Spec.zero := by
  unfold k1_pay1
  show FloatOps.maximumf (FloatOps.addf (FloatOps.addf
      (FloatOps.matmul dot_S5000x128_S128x128_S5000x128_1_1_0_0_n_n none _ _
        (constant S5000x128 .f32 0x00000000#32) (ix2 p q)) _)
      (FloatOps.matmul dot_S5000x128_S128x128_S5000x128_1_1_0_0_n_n none _ _
        (constant S5000x128 .f32 0x00000000#32) (ix2 p q))) _ = _
  rw [sage_matmul_apply, sage_matmul_apply]
  simp only [shapeCast_self, broadcastTo_a1_ab_apply, broadcastTo_1b_ab_apply, truncf_apply, divf_apply,
    maximumf_apply, broadcast_apply, Ideal.addf_def, Ideal.maximumf_def]
  rfl

theorem pay2_apply (v0 : Vec Ideal S5000x1 .f32) (v2 v8 : Vec Ideal S5000x128 .f32)
    (v12 v14 : Vec Ideal S128x128 .f32) (v18 : Vec Ideal S1x128 .f32) (p : Fin 5000) (q : Fin 128) :
    k2_pay1 (F := Ideal) v0 v2 v8 v12 v14 v18 (ix2 p q)
      = max (((∑ k : Fin 128, Ideal.div (v2 (ix2 p k)) (max (v0 (ix2 p 0)) Spec.one) * v12 (ix2 q k))
              + v18 (ix2 0 q))
            + ∑ k : Fin 128, v8 (ix2 p k) * v14 (ix2 q k)) Spec.zero := by
  unfold k2_pay1
  show FloatOps.maximumf (FloatOps.addf (FloatOps.addf
      (FloatOps.matmul dot_S5000x128_S128x128_S5000x128_1_1_0_0_n_n none _ _
        (constant S5000x128 .f32 0x00000000#32) (ix2 p q)) _)
      (FloatOps.matmul dot_S5000x128_S128x128_S5000x128_1_1_0_0_n_n none _ _
        (constant S5000x128 .f32 0x00000000#32) (ix2 p q))) _ = _
  rw [sage_matmul_apply, sage_matmul_apply]
  simp only [shapeCast_self, broadcastTo_a1_ab_apply, broadcastTo_1b_ab_apply, truncf_apply, divf_apply,
    maximumf_apply, broadcast_apply, Ideal.addf_def, Ideal.maximumf_def]
  rfl

/-- The reset value is zero at every entry. -/
theorem pay3_reset (g : Fin 8) (k : Fin 128) : k3_pay1 (F := Ideal) (ix2 g k) = 0 := by
  unfold k3_pay1
  show shapeCast S8x128 (broadcast S8x128 (Ideal.ofBits .f32 0x00000000#32)) shapeCasts_S8x128_S8x128 (ix2 g k) = 0
  rw [shapeCast_self, broadcast_apply]
  exact Ideal.ofBits_zero_f32

theorem pool_lhs_0 (i : S8x128.Idx) (c : dot_S5000x8_S5000x128_S8x128_0_0_1_1_n_n.contr.Idx) :
    (dot_S5000x8_S5000x128_S8x128_0_0_1_1_n_n.lhsIdx i c 0).val = (c ⟨0, by decide⟩).val :=
  dot_S5000x8_S5000x128_S8x128_0_0_1_1_n_n.lhsIdx_val_of_single rfl i c

theorem pool_lhs_1 (i : S8x128.Idx) (c : dot_S5000x8_S5000x128_S8x128_0_0_1_1_n_n.contr.Idx) :
    (dot_S5000x8_S5000x128_S8x128_0_0_1_1_n_n.lhsIdx i c 1).val = (i 0).val := by
  unfold DotDims.lhsIdx
  rw [dif_neg (show ¬(1 : Fin S5000x8.rank) ∈ dot_S5000x8_S5000x128_S8x128_0_0_1_1_n_n.lhsBatch by decide),
    dif_pos (show (1 : Fin S5000x8.rank) ∈ dot_S5000x8_S5000x128_S8x128_0_0_1_1_n_n.lhsNonContracting by decide)]
  rfl

theorem pool_rhs_0 (i : S8x128.Idx) (c : dot_S5000x8_S5000x128_S8x128_0_0_1_1_n_n.contr.Idx) :
    (dot_S5000x8_S5000x128_S8x128_0_0_1_1_n_n.rhsIdx i c 0).val = (c ⟨0, by decide⟩).val :=
  dot_S5000x8_S5000x128_S8x128_0_0_1_1_n_n.rhsIdx_val_of_single rfl i c

theorem pool_rhs_1 (i : S8x128.Idx) (c : dot_S5000x8_S5000x128_S8x128_0_0_1_1_n_n.contr.Idx) :
    (dot_S5000x8_S5000x128_S8x128_0_0_1_1_n_n.rhsIdx i c 1).val = (i 1).val := by
  unfold DotDims.rhsIdx
  rw [dif_neg (show ¬(1 : Fin S5000x128.rank) ∈ dot_S5000x8_S5000x128_S8x128_0_0_1_1_n_n.rhsBatch by decide),
    dif_pos (show (1 : Fin S5000x128.rank) ∈ dot_S5000x8_S5000x128_S8x128_0_0_1_1_n_n.rhsNonContracting by decide)]
  rfl

theorem pool_matmul_apply {φ₁ φ₂ : FTy} (x : FVec Ideal S5000x8 φ₁) (y : FVec Ideal S5000x128 φ₂)
    (g : Fin 8) (k : Fin 128) :
    FloatOps.matmul dot_S5000x8_S5000x128_S8x128_0_0_1_1_n_n none x y (constant S8x128 .f32 0x00000000#32) (ix2 g k)
      = ∑ p : Fin 5000, x (ix2 p g) * y (ix2 p k) := by
  rw [Ideal.matmul_constant_zero_apply,
    ← Equiv.sum_comp (ValueIdx.contrEquiv1 dot_S5000x8_S5000x128_S8x128_0_0_1_1_n_n 5000 rfl rfl).symm]
  refine Finset.sum_congr rfl fun p _ => ?_
  have hp := ValueIdx.contrEquiv1_symm_val dot_S5000x8_S5000x128_S8x128_0_0_1_1_n_n 5000 rfl rfl p
  have el : dot_S5000x8_S5000x128_S8x128_0_0_1_1_n_n.lhsIdx (ix2 g k)
      ((ValueIdx.contrEquiv1 dot_S5000x8_S5000x128_S8x128_0_0_1_1_n_n 5000 rfl rfl).symm p) = ix2 p g :=
    funext fun ax => Fin.ext (by
      match ax with
      | ⟨0, _⟩ => exact (pool_lhs_0 _ _).trans hp
      | ⟨1, _⟩ => exact pool_lhs_1 _ _)
  have er : dot_S5000x8_S5000x128_S8x128_0_0_1_1_n_n.rhsIdx (ix2 g k)
      ((ValueIdx.contrEquiv1 dot_S5000x8_S5000x128_S8x128_0_0_1_1_n_n 5000 rfl rfl).symm p) = ix2 p k :=
    funext fun ax => Fin.ext (by
      match ax with
      | ⟨0, _⟩ => exact (pool_rhs_0 _ _).trans hp
      | ⟨1, _⟩ => exact pool_rhs_1 _ _)
  rw [el, er]

theorem cmpi_eq_word {w : ℕ} (a b : BitVec w) : IntOp.cmpi .eq a b = if a = b then 1#1 else 0#1 := by
  unfold IntOp.cmpi
  by_cases h : a = b
  · rw [if_pos h, h]; simp
  · rw [if_neg h]
    show BitVec.ofBool (a == b) = 0#1
    rw [beq_eq_false_iff_ne.mpr h]
    rfl

/-- The one-hot selector at (p, g) is 1 when row p's graph id is the word of g and 0 otherwise. -/
theorem selector_apply (v7 : Vec Ideal S5000x1 .i32) (p : Fin 5000) (g : Fin 8) :
    (sitofp .f32 (extui 32 (cmpi .eq
        (broadcastTo S5000x8 (shapeCast S5000x1 v7 shapeCasts_S5000x1_S5000x1) broadcasts_S5000x1_S5000x8)
        (iota .tc S5000x8 32 [1] iota_S5000x8_d1_w32)) natLt_1_32) : FVec Ideal S5000x8 .f32) (ix2 p g)
      = if v7 (ix2 p 0) = BitVec.ofNat 32 g.val then (1 : EReal) else 0 := by
  have hi : iota .tc S5000x8 32 [1] iota_S5000x8_d1_w32 (ix2 p g) = BitVec.ofNat 32 g.val := by
    show BitVec.ofNat 32 (0 * 8 + g.val) = _
    rw [Nat.zero_mul, Nat.zero_add]
  show (((((IntOp.cmpi .eq
      (broadcastTo S5000x8 (shapeCast S5000x1 v7 shapeCasts_S5000x1_S5000x1) broadcasts_S5000x1_S5000x8 (ix2 p g))
      (iota .tc S5000x8 32 [1] iota_S5000x8_d1_w32 (ix2 p g))).setWidth 32).toInt : ℝ) : EReal)) = _
  rw [hi, broadcastTo_a1_ab_apply, shapeCast_self, cmpi_eq_word]
  by_cases h : v7 (ix2 p 0) = BitVec.ofNat 32 g.val
  · rw [if_pos h, if_pos h]
    have h1 : ((1#1 : BitVec 1).setWidth 32).toInt = 1 := by decide
    rw [h1, Int.cast_one, EReal.coe_one]
  · rw [if_neg h, if_neg h]
    have h0 : ((0#1 : BitVec 1).setWidth 32).toInt = 0 := by decide
    rw [h0, Int.cast_zero, EReal.coe_zero]

/-- The updated accumulator at (g, k): the old entry plus the sum, over the block's rows whose id is g, of the row's entry k times its weight. -/
theorem pay3_acc (v3 : Vec Ideal S5000x128 .f32) (v5 : Vec Ideal S5000x1 .f32) (v7 : Vec Ideal S5000x1 .i32)
    (v19 : Vec Ideal S8x128 .f32) (g : Fin 8) (k : Fin 128) :
    k3_pay2 (F := Ideal) v3 v5 v7 v19 (ix2 g k)
      = v19 (ix2 g k)
        + ∑ p : Fin 5000, (if v7 (ix2 p 0) = BitVec.ofNat 32 g.val then v3 (ix2 p k) * v5 (ix2 p 0) else 0) := by
  unfold k3_pay2
  show shapeCast S8x128 (addf (F := Ideal) (v19 : FVec Ideal S8x128 .f32) (FloatOps.matmul dot_S5000x8_S5000x128_S8x128_0_0_1_1_n_n none _ _
    (constant S8x128 .f32 0x00000000#32))) shapeCasts_S8x128_S8x128 (ix2 g k) = _
  rw [shapeCast_self, addf_apply, pool_matmul_apply]
  refine congrArg (v19 (ix2 g k) + ·) (Finset.sum_congr rfl fun p _ => ?_)
  rw [truncf_apply, truncf_apply, selector_apply, mulf_apply, shapeCast_self, shapeCast_self,
    broadcastTo_a1_ab_apply, ite_mul, one_mul, zero_mul]

end Cert.KernelIdeal.Hand

end
-- ==== Proof.KernelIdealVal0.lean ====
import proofs.«416290_j3246995276182_1_alg».proof.Proof.KernelIdealReg0
import proofs.«416290_j3246995276182_1_alg».proof.Proof.KernelIdealPay
import proofs.«416290_j3246995276182_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat)
open scoped BigOperators

section Value0

variable (V : (c : Dev nD) → (b : Ref sig .tc) → Buf (Elt Ideal) ((c : Thread nD τ).loc b))

theorem zero_offsets0 : (![0, 0] : Fin 2 → Nat) = fun _ => 0 := funext fun a => by fin_cases a <;> rfl

theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt0 (t : Fin cfg0.N) : t.val < 10 := Nat.lt_of_lt_of_eq t.isLt N_0

/-- From blocks: if row p of the x block is row r of x and the other blocks are the whole arrays, the body's value at (p, j) is the embedding at (r, j). -/
theorem embed_entry (x : Spec.Arr 50000 300) (w : Spec.Arr 128 300) (b : Spec.Arr 1 128)
    (x0 : Vec Ideal S5000x300 .f32) (x1 : Vec Ideal S128x300 .f32) (x2 : Vec Ideal S1x128 .f32)
    (p : Fin 5000) (q : Fin 128) (r : Fin 50000)
    (h0 : ∀ k : Fin 300, x0 (ix2 p k) = x (ix2 r k))
    (h1 : ∀ k : Fin 300, x1 (ix2 q k) = w (ix2 q k))
    (h2 : x2 (ix2 0 q) = b (ix2 0 q)) :
    k0_pay1 (F := Ideal) x0 x1 x2 (ix2 p q) = Spec.embed x w b (ix2 r q) := by
  rw [pay0_apply]
  show _ = (∑ k : Fin 300, x (ix2 r k) * w (ix2 q k)) + b (ix2 0 q)
  rw [h2]
  exact congrArg (· + b (ix2 0 q)) (Finset.sum_congr rfl fun k _ => by rw [h0 k, h1 k])

theorem block0_0_apply (c : Dev nD) (t : Fin cfg0.N) (p : Fin 5000) (k : Fin 300) (r : Fin 50000)
    (hr : r.val = t.val * 5000 + p.val) :
    (iblk0 V c 0 t : Vec Ideal S5000x300 .f32) (ix2 p k) = (V c main_arg0 : Spec.Arr 50000 300) (ix2 r k) := by
  obtain ⟨e0, e1, -⟩ := block_index0 t
  show (V c main_arg0 : Spec.Arr 50000 300) (((cfg0.win 0).blk t).view.emb (ix2 p k)) = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 300 + 1 * k.val = k.val; rw [e1]; omega

theorem block0_1_apply (c : Dev nD) (t : Fin cfg0.N) (q : Fin 128) (k : Fin 300) :
    (iblk0 V c 1 t : Vec Ideal S128x300 .f32) (ix2 q k) = (V c main_arg3 : Spec.Arr 128 300) (ix2 q k) := by
  obtain ⟨-, -, e0, e1, -⟩ := block_index0 t
  show (V c main_arg3 : Spec.Arr 128 300) (((cfg0.win 1).blk t).view.emb (ix2 q k)) = _
  refine congrArg _ (funext fun a => Fin.ext ?_)
  match a with
  | ⟨0, _⟩ => show win0_1.index t (0 : Fin 2) * 128 + 1 * q.val = q.val; rw [e0]; omega
  | ⟨1, _⟩ => show win0_1.index t (1 : Fin 2) * 300 + 1 * k.val = k.val; rw [e1]; omega

theorem block0_2_apply (c : Dev nD) (t : Fin cfg0.N) (q : Fin 128) :
    (iblk0 V c 2 t : Vec Ideal S1x128 .f32) (ix2 0 q) = (V c main_v4 : Spec.Arr 1 128) (ix2 0 q) := by
  obtain ⟨-, -, -, -, e0, e1, -⟩ := block_index0 t
  show (V c main_v4 : Spec.Arr 1 128) (((cfg0.win 2).blk t).view.emb (ix2 0 q)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

theorem block0_3_emb (t : Fin cfg0.N) (p : Fin 5000) (q : Fin 128) (r : Fin 50000)
    (hr : r.val = t.val * 5000 + p.val) :
    ((cfg0.win 3).blk t).view.emb (ix2 p q) = (ix2 r q : S50000x128.Idx) := by
  obtain ⟨-, -, -, -, -, -, e0, e1⟩ := block_index0 t
  refine funext fun a => Fin.ext ?_
  match a with
  | ⟨0, _⟩ => show win0_3.index t (0 : Fin 2) * 5000 + 1 * p.val = r.val; rw [e0, hr]; omega
  | ⟨1, _⟩ => show win0_3.index t (1 : Fin 2) * 128 + 1 * q.val = q.val; rw [e1]; omega

/-- What point t writes back is block t of the embedding of the arrays the region finds. -/
theorem flushed0_eq (c : Dev nD) (t : Fin cfg0.N) :
    (dat0 (F := Ideal) V c).flushed 3 t
      = ((cfg0.win 3).blk t).view.read (Elt Ideal) (Spec.embed (V c main_arg0) (V c main_arg3) (V c main_v4)) := by
  show (cfg0.win 3).cut (grid0.coords t) ((dat0 V c).after 3 t) = _
  rw [after0_3]
  unfold out0_3
  rw [View.canon_unit_zero zero_offsets0]
  simp only [View.ld_unit_zero (S := S5000x300) zero_offsets0, View.ld_unit_zero (S := S128x300) zero_offsets0,
    View.ld_unit_zero (S := S1x128) zero_offsets0]
  refine funext fun (j : S5000x128.Idx) => ?_
  obtain ⟨p, q, rfl⟩ : ∃ (p : Fin 5000) (q : Fin 128), j = ix2 p q := ⟨j 0, j 1, eq_ix2 j⟩
  have ht := point_lt0 t
  have hr : t.val * 5000 + p.val < 50000 := by have := p.isLt; omega
  show k0_pay1 (F := Ideal) (iblk0 V c 0 t) (iblk0 V c 1 t) (iblk0 V c 2 t) (ix2 p q)
    = Spec.embed (V c main_arg0) (V c main_arg3) (V c main_v4) (((cfg0.win 3).blk t).view.emb (ix2 p q))
  rw [block0_3_emb t p q ⟨t.val * 5000 + p.val, hr⟩ rfl]
  exact embed_entry (V c main_arg0) (V c main_arg3) (V c main_v4) (iblk0 V c 0 t) (iblk0 V c 1 t) (iblk0 V c 2 t) p q
    ⟨t.val * 5000 + p.val, hr⟩ (fun k => block0_0_apply V c t p k _ rfl) (fun k => block0_1_apply V c t q k)
    (block0_2_apply V c t q)

theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v5).slice (win0_3.rect t)).set ↔ _
  rw [View.set_slice_whole, Rect.mem_set_unit]
  exact Iff.rfl

/-- Every row lies in the block of the point r / 5000, which writes it back. -/
theorem cover0 (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 10 := N_0
  obtain ⟨-, -, -, -, -, -, e0, e1⟩ := block_index0 ⟨(i 0).val / 5000, by rw [hN]; omega⟩
  refine ⟨⟨(i 0).val / 5000, by rw [hN]; omega⟩, flush0_3 _, ?_⟩
  rw [mem_block0]
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- So the output array ends holding the embedding layer of x, the weight and the bias row. -/
theorem final0 (c : Dev nD) :
    (dat0 (F := Ideal) V c).arrAt 3 cfg0.N = Spec.embed (V c main_arg0) (V c main_arg3) (V c main_v4) :=
  (dat0 V c).arrAt_eq_of_cover 3 (Spec.embed (V c main_arg0) (V c main_arg3) (V c main_v4))
    (fun t _ => flushed0_eq V c t) cover0

end Value0

end Cert.KernelIdeal.Hand

end
-- ==== Proof.KernelIdealVal1.lean ====
import proofs.«416290_j3246995276182_1_alg».proof.Proof.KernelIdealReg1
import proofs.«416290_j3246995276182_1_alg».proof.Proof.KernelIdealPay
import proofs.«416290_j3246995276182_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat)
open scoped BigOperators

section Value1

variable (V : (c : Dev nD) → (b : Ref sig .tc) → Buf (Elt Ideal) ((c : Thread nD τ).loc b))

theorem zero_offsets1 : (![0, 0] : Fin 2 → Nat) = fun _ => 0 := funext fun a => by fin_cases a <;> rfl

theorem block_index1_0 : ∀ t : Fin cfg1.N, win1_0.index t (0 : Fin 2) = t.val ∧ win1_0.index t (1 : Fin 2) = 0 :=
  (by decide +kernel : ∀ t : Fin grid1.N, _)
theorem block_index1_1 : ∀ t : Fin cfg1.N, win1_1.index t (0 : Fin 2) = t.val ∧ win1_1.index t (1 : Fin 2) = 0 :=
  (by decide +kernel : ∀ t : Fin grid1.N, _)
theorem block_index1_2 : ∀ t : Fin cfg1.N, win1_2.index t (0 : Fin 2) = t.val ∧ win1_2.index t (1 : Fin 2) = 0 :=
  (by decide +kernel : ∀ t : Fin grid1.N, _)
theorem block_index1_3 : ∀ t : Fin cfg1.N, win1_3.index t (0 : Fin 2) = 0 ∧ win1_3.index t (1 : Fin 2) = 0 :=
  (by decide +kernel : ∀ t : Fin grid1.N, _)
theorem block_index1_4 : ∀ t : Fin cfg1.N, win1_4.index t (0 : Fin 2) = 0 ∧ win1_4.index t (1 : Fin 2) = 0 :=
  (by decide +kernel : ∀ t : Fin grid1.N, _)
theorem block_index1_5 : ∀ t : Fin cfg1.N, win1_5.index t (0 : Fin 2) = 0 ∧ win1_5.index t (1 : Fin 2) = 0 :=
  (by decide +kernel : ∀ t : Fin grid1.N, _)
theorem block_index1_6 : ∀ t : Fin cfg1.N, win1_6.index t (0 : Fin 2) = t.val ∧ win1_6.index t (1 : Fin 2) = 0 :=
  (by decide +kernel : ∀ t : Fin grid1.N, _)

theorem point_lt1 (t : Fin cfg1.N) : t.val < 10 := Nat.lt_of_lt_of_eq t.isLt N_1

/-- From blocks: if rows p of the row-blocked inputs are rows r of their arrays and the other blocks are the whole arrays, the body's value at (p, q) is the convolution at (r, q). -/
theorem sage_entry1 (agg : Spec.Arr 50000 128) (deg : Spec.Arr 50000 1) (h : Spec.Arr 50000 128)
    (wl : Spec.Arr 128 128) (bl : Spec.Arr 1 128) (wr : Spec.Arr 128 128)
    (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32)
    (p : Fin 5000) (q : Fin 128) (r : Fin 50000)
    (h0 : ∀ k : Fin 128, x0 (ix2 p k) = agg (ix2 r k))
    (h1 : x1 (ix2 p 0) = deg (ix2 r 0))
    (h2 : ∀ k : Fin 128, x2 (ix2 p k) = h (ix2 r k))
    (h3 : ∀ k : Fin 128, x3 (ix2 q k) = wl (ix2 q k))
    (h4 : x4 (ix2 0 q) = bl (ix2 0 q))
    (h5 : ∀ k : Fin 128, x5 (ix2 q k) = wr (ix2 q k)) :
    k1_pay1 (F := Ideal) x1 x0 x2 x3 x5 x4 (ix2 p q) = Spec.sage agg deg h wl bl wr (ix2 r q) := by
  rw [pay1_apply]
  show _ = max (((∑ k : Fin 128, Ideal.div (agg (ix2 r k)) (max (deg (ix2 r 0)) Spec.one) * wl (ix2 q k)) + bl (ix2 0 q))
      + ∑ k : Fin 128, h (ix2 r k) * wr (ix2 q k)) Spec.zero
  rw [h1, h4]
  have e1 : (∑ k : Fin 128, Ideal.div (x0 (ix2 p k)) (max (deg (ix2 r 0)) Spec.one) * x3 (ix2 q k))
      = ∑ k : Fin 128, Ideal.div (agg (ix2 r k)) (max (deg (ix2 r 0)) Spec.one) * wl (ix2 q k) :=
    Finset.sum_congr rfl fun k _ => by rw [h0 k, h3 k]
  have e2 : (∑ k : Fin 128, x2 (ix2 p k) * x5 (ix2 q k)) = ∑ k : Fin 128, h (ix2 r k) * wr (ix2 q k) :=
    Finset.sum_congr rfl fun k _ => by rw [h2 k, h5 k]
  rw [e1, e2]

theorem block1_0_apply (c : Dev nD) (t : Fin cfg1.N) (p : Fin 5000) (k : Fin 128) (r : Fin 50000)
    (hr : r.val = t.val * 5000 + p.val) :
    (iblk1 V c 0 t : Vec Ideal S5000x128 .f32) (ix2 p k) = (V c main_v19 : Spec.Arr 50000 128) (ix2 r k) := by
  obtain ⟨e0, e1⟩ := block_index1_0 t
  show (V c main_v19 : Spec.Arr 50000 128) (((cfg1.win 0).blk t).view.emb (ix2 p k)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

theorem block1_1_apply (c : Dev nD) (t : Fin cfg1.N) (p : Fin 5000) (k : Fin 1) (r : Fin 50000)
    (hr : r.val = t.val * 5000 + p.val) :
    (iblk1 V c 1 t : Vec Ideal S5000x1 .f32) (ix2 p k) = (V c main_v20 : Spec.Arr 50000 1) (ix2 r k) := by
  obtain ⟨e0, e1⟩ := block_index1_1 t
  show (V c main_v20 : Spec.Arr 50000 1) (((cfg1.win 1).blk t).view.emb (ix2 p k)) = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 1 + 1 * k.val = k.val; rw [e1]; omega

theorem block1_2_apply (c : Dev nD) (t : Fin cfg1.N) (p : Fin 5000) (k : Fin 128) (r : Fin 50000)
    (hr : r.val = t.val * 5000 + p.val) :
    (iblk1 V c 2 t : Vec Ideal S5000x128 .f32) (ix2 p k) = (V c main_v5 : Spec.Arr 50000 128) (ix2 r k) := by
  obtain ⟨e0, e1⟩ := block_index1_2 t
  show (V c main_v5 : Spec.Arr 50000 128) (((cfg1.win 2).blk t).view.emb (ix2 p k)) = _
  refine congrArg _ (funext fun a => Fin.ext ?_)
  match a with
  | ⟨0, _⟩ => show win1_2.index t (0 : Fin 2) * 5000 + 1 * p.val = r.val; rw [e0, hr]; omega
  | ⟨1, _⟩ => show win1_2.index t (1 : Fin 2) * 128 + 1 * k.val = k.val; rw [e1]; omega

theorem block1_3_apply (c : Dev nD) (t : Fin cfg1.N) (q : Fin 128) (k : Fin 128) :
    (iblk1 V c 3 t : Vec Ideal S128x128 .f32) (ix2 q k) = (V c main_arg5 : Spec.Arr 128 128) (ix2 q k) := by
  obtain ⟨e0, e1⟩ := block_index1_3 t
  show (V c main_arg5 : Spec.Arr 128 128) (((cfg1.win 3).blk t).view.emb (ix2 q k)) = _
  refine congrArg _ (funext fun a => Fin.ext ?_)
  match a with
  | ⟨0, _⟩ => show win1_3.index t (0 : Fin 2) * 128 + 1 * q.val = q.val; rw [e0]; omega
  | ⟨1, _⟩ => show win1_3.index t (1 : Fin 2) * 128 + 1 * k.val = k.val; rw [e1]; omega

theorem block1_4_apply (c : Dev nD) (t : Fin cfg1.N) (q : Fin 1) (k : Fin 128) :
    (iblk1 V c 4 t : Vec Ideal S1x128 .f32) (ix2 q k) = (V c main_v21 : Spec.Arr 1 128) (ix2 q k) := by
  obtain ⟨e0, e1⟩ := block_index1_4 t
  show (V c main_v21 : Spec.Arr 1 128) (((cfg1.win 4).blk t).view.emb (ix2 q k)) = _
  refine congrArg _ (funext fun a => Fin.ext ?_)
  match a with
  | ⟨0, _⟩ => show win1_4.index t (0 : Fin 2) * 1 + 1 * q.val = q.val; rw [e0]; omega
  | ⟨1, _⟩ => show win1_4.index t (1 : Fin 2) * 128 + 1 * k.val = k.val; rw [e1]; omega

theorem block1_5_apply (c : Dev nD) (t : Fin cfg1.N) (q : Fin 128) (k : Fin 128) :
    (iblk1 V c 5 t : Vec Ideal S128x128 .f32) (ix2 q k) = (V c main_arg7 : Spec.Arr 128 128) (ix2 q k) := by
  obtain ⟨e0, e1⟩ := block_index1_5 t
  show (V c main_arg7 : Spec.Arr 128 128) (((cfg1.win 5).blk t).view.emb (ix2 q k)) = _
  refine congrArg _ (funext fun a => Fin.ext ?_)
  match a with
  | ⟨0, _⟩ => show win1_5.index t (0 : Fin 2) * 128 + 1 * q.val = q.val; rw [e0]; omega
  | ⟨1, _⟩ => show win1_5.index t (1 : Fin 2) * 128 + 1 * k.val = k.val; rw [e1]; omega

theorem block1_6_emb (t : Fin cfg1.N) (p : Fin 5000) (q : Fin 128) (r : Fin 50000)
    (hr : r.val = t.val * 5000 + p.val) :
    ((cfg1.win 6).blk t).view.emb (ix2 p q) = (ix2 r q : S50000x128.Idx) := by
  obtain ⟨e0, e1⟩ := block_index1_6 t
  refine funext fun a => Fin.ext ?_
  match a with
  | ⟨0, _⟩ => show win1_6.index t (0 : Fin 2) * 5000 + 1 * p.val = r.val; rw [e0, hr]; omega
  | ⟨1, _⟩ => show win1_6.index t (1 : Fin 2) * 128 + 1 * q.val = q.val; rw [e1]; omega

/-- What point t writes back is block t of the convolution of the arrays the region finds. -/
theorem flushed1_eq (c : Dev nD) (t : Fin cfg1.N) :
    (dat1 (F := Ideal) V c).flushed 6 t
      = ((cfg1.win 6).blk t).view.read (Elt Ideal)
          (Spec.sage (V c main_v19) (V c main_v20) (V c main_v5) (V c main_arg5) (V c main_v21) (V c main_arg7)) := by
  show (cfg1.win 6).cut (grid1.coords t) ((dat1 V c).after 6 t) = _
  rw [after1_6]
  unfold out1_6
  rw [View.canon_unit_zero zero_offsets1]
  simp only [View.ld_unit_zero (S := S5000x128) zero_offsets1, View.ld_unit_zero (S := S5000x1) zero_offsets1,
    View.ld_unit_zero (S := S128x128) zero_offsets1, View.ld_unit_zero (S := S1x128) zero_offsets1]
  refine funext fun (j : S5000x128.Idx) => ?_
  obtain ⟨p, q, rfl⟩ : ∃ (p : Fin 5000) (q : Fin 128), j = ix2 p q := ⟨j 0, j 1, eq_ix2 j⟩
  have ht := point_lt1 t
  have hr : t.val * 5000 + p.val < 50000 := by have := p.isLt; omega
  show k1_pay1 (F := Ideal) (iblk1 V c 1 t) (iblk1 V c 0 t) (iblk1 V c 2 t) (iblk1 V c 3 t) (iblk1 V c 5 t) (iblk1 V c 4 t) (ix2 p q)
    = Spec.sage (V c main_v19) (V c main_v20) (V c main_v5) (V c main_arg5) (V c main_v21) (V c main_arg7)
        (((cfg1.win 6).blk t).view.emb (ix2 p q))
  rw [block1_6_emb t p q ⟨t.val * 5000 + p.val, hr⟩ rfl]
  exact sage_entry1 (V c main_v19) (V c main_v20) (V c main_v5) (V c main_arg5) (V c main_v21) (V c main_arg7)
    (iblk1 V c 0 t) (iblk1 V c 1 t) (iblk1 V c 2 t) (iblk1 V c 3 t) (iblk1 V c 4 t) (iblk1 V c 5 t) p q
    ⟨t.val * 5000 + p.val, hr⟩ (fun k => block1_0_apply V c t p k _ rfl) (block1_1_apply V c t p 0 _ rfl)
    (fun k => block1_2_apply V c t p k _ rfl) (fun k => block1_3_apply V c t q k) (block1_4_apply V c t 0 q)
    (fun k => block1_5_apply V c t q k)

theorem mem_block1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v22).slice (win1_6.rect t)).set ↔ _
  rw [View.set_slice_whole, Rect.mem_set_unit]
  exact Iff.rfl

/-- Every row lies in the block of the point r / 5000, which writes it back. -/
theorem cover1 (i : S50000x128.Idx) :
    ∃ t : Fin cfg1.N, (cfg1.win 6).flush t = true ∧ i ∈ ((cfg1.win 6).blk t).view.set := by
  have hi0 : (i 0).val < 50000 := idx2_lt0 i
  have hi1 : (i 1).val < 128 := idx2_lt1 i
  have hN : cfg1.N = 10 := N_1
  obtain ⟨e0, e1⟩ := block_index1_6 ⟨(i 0).val / 5000, by rw [hN]; omega⟩
  refine ⟨⟨(i 0).val / 5000, by rw [hN]; omega⟩, flush1_6 _, ?_⟩
  rw [mem_block1]
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e1]; omega

/-- So the output array ends holding the rectified convolution of the six arrays. -/
theorem final1 (c : Dev nD) :
    (dat1 (F := Ideal) V c).arrAt 6 cfg1.N
      = Spec.sage (V c main_v19) (V c main_v20) (V c main_v5) (V c main_arg5) (V c main_v21) (V c main_arg7) :=
  (dat1 V c).arrAt_eq_of_cover 6
    (Spec.sage (V c main_v19) (V c main_v20) (V c main_v5) (V c main_arg5) (V c main_v21) (V c main_arg7))
    (fun t _ => flushed1_eq V c t) cover1

end Value1

end Cert.KernelIdeal.Hand

end
-- ==== Proof.KernelIdealVal2.lean ====
import proofs.«416290_j3246995276182_1_alg».proof.Proof.KernelIdealReg2
import proofs.«416290_j3246995276182_1_alg».proof.Proof.KernelIdealPay
import proofs.«416290_j3246995276182_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat)
open scoped BigOperators

section Value2

variable (V : (c : Dev nD) → (b : Ref sig .tc) → Buf (Elt Ideal) ((c : Thread nD τ).loc b))

theorem zero_offsets2 : (![0, 0] : Fin 2 → Nat) = fun _ => 0 := funext fun a => by fin_cases a <;> rfl

theorem block_index2_0 : ∀ t : Fin cfg2.N, win2_0.index t (0 : Fin 2) = t.val ∧ win2_0.index t (1 : Fin 2) = 0 :=
  (by decide +kernel : ∀ t : Fin grid2.N, _)
theorem block_index2_1 : ∀ t : Fin cfg2.N, win2_1.index t (0 : Fin 2) = t.val ∧ win2_1.index t (1 : Fin 2) = 0 :=
  (by decide +kernel : ∀ t : Fin grid2.N, _)
theorem block_index2_2 : ∀ t : Fin cfg2.N, win2_2.index t (0 : Fin 2) = t.val ∧ win2_2.index t (1 : Fin 2) = 0 :=
  (by decide +kernel : ∀ t : Fin grid2.N, _)
theorem block_index2_3 : ∀ t : Fin cfg2.N, win2_3.index t (0 : Fin 2) = 0 ∧ win2_3.index t (1 : Fin 2) = 0 :=
  (by decide +kernel : ∀ t : Fin grid2.N, _)
theorem block_index2_4 : ∀ t : Fin cfg2.N, win2_4.index t (0 : Fin 2) = 0 ∧ win2_4.index t (1 : Fin 2) = 0 :=
  (by decide +kernel : ∀ t : Fin grid2.N, _)
theorem block_index2_5 : ∀ t : Fin cfg2.N, win2_5.index t (0 : Fin 2) = 0 ∧ win2_5.index t (1 : Fin 2) = 0 :=
  (by decide +kernel : ∀ t : Fin grid2.N, _)
theorem block_index2_6 : ∀ t : Fin cfg2.N, win2_6.index t (0 : Fin 2) = t.val ∧ win2_6.index t (1 : Fin 2) = 0 :=
  (by decide +kernel : ∀ t : Fin grid2.N, _)

theorem point_lt2 (t : Fin cfg2.N) : t.val < 10 := Nat.lt_of_lt_of_eq t.isLt N_2

/-- From blocks: if rows p of the row-blocked inputs are rows r of their arrays and the other blocks are the whole arrays, the body's value at (p, q) is the convolution at (r, q). -/
theorem sage_entry2 (agg : Spec.Arr 50000 128) (deg : Spec.Arr 50000 1) (h : Spec.Arr 50000 128)
    (wl : Spec.Arr 128 128) (bl : Spec.Arr 1 128) (wr : Spec.Arr 128 128)
    (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32)
    (p : Fin 5000) (q : Fin 128) (r : Fin 50000)
    (h0 : ∀ k : Fin 128, x0 (ix2 p k) = agg (ix2 r k))
    (h1 : x1 (ix2 p 0) = deg (ix2 r 0))
    (h2 : ∀ k : Fin 128, x2 (ix2 p k) = h (ix2 r k))
    (h3 : ∀ k : Fin 128, x3 (ix2 q k) = wl (ix2 q k))
    (h4 : x4 (ix2 0 q) = bl (ix2 0 q))
    (h5 : ∀ k : Fin 128, x5 (ix2 q k) = wr (ix2 q k)) :
    k2_pay1 (F := Ideal) x1 x0 x2 x3 x5 x4 (ix2 p q) = Spec.sage agg deg h wl bl wr (ix2 r q) := by
  rw [pay2_apply]
  show _ = max (((∑ k : Fin 128, Ideal.div (agg (ix2 r k)) (max (deg (ix2 r 0)) Spec.one) * wl (ix2 q k)) + bl (ix2 0 q))
      + ∑ k : Fin 128, h (ix2 r k) * wr (ix2 q k)) Spec.zero
  rw [h1, h4]
  have e1 : (∑ k : Fin 128, Ideal.div (x0 (ix2 p k)) (max (deg (ix2 r 0)) Spec.one) * x3 (ix2 q k))
      = ∑ k : Fin 128, Ideal.div (agg (ix2 r k)) (max (deg (ix2 r 0)) Spec.one) * wl (ix2 q k) :=
    Finset.sum_congr rfl fun k _ => by rw [h0 k, h3 k]
  have e2 : (∑ k : Fin 128, x2 (ix2 p k) * x5 (ix2 q k)) = ∑ k : Fin 128, h (ix2 r k) * wr (ix2 q k) :=
    Finset.sum_congr rfl fun k _ => by rw [h2 k, h5 k]
  rw [e1, e2]

theorem block2_0_apply (c : Dev nD) (t : Fin cfg2.N) (p : Fin 5000) (k : Fin 128) (r : Fin 50000)
    (hr : r.val = t.val * 5000 + p.val) :
    (iblk2 V c 0 t : Vec Ideal S5000x128 .f32) (ix2 p k) = (V c main_v32 : Spec.Arr 50000 128) (ix2 r k) := by
  obtain ⟨e0, e1⟩ := block_index2_0 t
  show (V c main_v32 : Spec.Arr 50000 128) (((cfg2.win 0).blk t).view.emb (ix2 p k)) = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

theorem block2_1_apply (c : Dev nD) (t : Fin cfg2.N) (p : Fin 5000) (k : Fin 1) (r : Fin 50000)
    (hr : r.val = t.val * 5000 + p.val) :
    (iblk2 V c 1 t : Vec Ideal S5000x1 .f32) (ix2 p k) = (V c main_v33 : Spec.Arr 50000 1) (ix2 r k) := by
  obtain ⟨e0, e1⟩ := block_index2_1 t
  show (V c main_v33 : Spec.Arr 50000 1) (((cfg2.win 1).blk t).view.emb (ix2 p k)) = _
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 1 + 1 * k.val = k.val; rw [e1]; omega

theorem block2_2_apply (c : Dev nD) (t : Fin cfg2.N) (p : Fin 5000) (k : Fin 128) (r : Fin 50000)
    (hr : r.val = t.val * 5000 + p.val) :
    (iblk2 V c 2 t : Vec Ideal S5000x128 .f32) (ix2 p k) = (V c main_v22 : Spec.Arr 50000 128) (ix2 r k) := by
  obtain ⟨e0, e1⟩ := block_index2_2 t
  show (V c main_v22 : Spec.Arr 50000 128) (((cfg2.win 2).blk t).view.emb (ix2 p k)) = _
  refine congrArg _ (funext fun a => Fin.ext ?_)
  match a with
  | ⟨0, _⟩ => show win2_2.index t (0 : Fin 2) * 5000 + 1 * p.val = r.val; rw [e0, hr]; omega
  | ⟨1, _⟩ => show win2_2.index t (1 : Fin 2) * 128 + 1 * k.val = k.val; rw [e1]; omega

theorem block2_3_apply (c : Dev nD) (t : Fin cfg2.N) (q : Fin 128) (k : Fin 128) :
    (iblk2 V c 3 t : Vec Ideal S128x128 .f32) (ix2 q k) = (V c main_arg8 : Spec.Arr 128 128) (ix2 q k) := by
  obtain ⟨e0, e1⟩ := block_index2_3 t
  show (V c main_arg8 : Spec.Arr 128 128) (((cfg2.win 3).blk t).view.emb (ix2 q k)) = _
  refine congrArg _ (funext fun a => Fin.ext ?_)
  match a with
  | ⟨0, _⟩ => show win2_3.index t (0 : Fin 2) * 128 + 1 * q.val = q.val; rw [e0]; omega
  | ⟨1, _⟩ => show win2_3.index t (1 : Fin 2) * 128 + 1 * k.val = k.val; rw [e1]; omega

theorem block2_4_apply (c : Dev nD) (t : Fin cfg2.N) (q : Fin 1) (k : Fin 128) :
    (iblk2 V c 4 t : Vec Ideal S1x128 .f32) (ix2 q k) = (V c main_v34 : Spec.Arr 1 128) (ix2 q k) := by
  obtain ⟨e0, e1⟩ := block_index2_4 t
  show (V c main_v34 : Spec.Arr 1 128) (((cfg2.win 4).blk t).view.emb (ix2 q k)) = _
  refine congrArg _ (funext fun a => Fin.ext ?_)
  match a with
  | ⟨0, _⟩ => show win2_4.index t (0 : Fin 2) * 1 + 1 * q.val = q.val; rw [e0]; omega
  | ⟨1, _⟩ => show win2_4.index t (1 : Fin 2) * 128 + 1 * k.val = k.val; rw [e1]; omega

theorem block2_5_apply (c : Dev nD) (t : Fin cfg2.N) (q : Fin 128) (k : Fin 128) :
    (iblk2 V c 5 t : Vec Ideal S128x128 .f32) (ix2 q k) = (V c main_arg10 : Spec.Arr 128 128) (ix2 q k) := by
  obtain ⟨e0, e1⟩ := block_index2_5 t
  show (V c main_arg10 : Spec.Arr 128 128) (((cfg2.win 5).blk t).view.emb (ix2 q k)) = _
  refine congrArg _ (funext fun a => Fin.ext ?_)
  match a with
  | ⟨0, _⟩ => show win2_5.index t (0 : Fin 2) * 128 + 1 * q.val = q.val; rw [e0]; omega
  | ⟨1, _⟩ => show win2_5.index t (1 : Fin 2) * 128 + 1 * k.val = k.val; rw [e1]; omega

theorem block2_6_emb (t : Fin cfg2.N) (p : Fin 5000) (q : Fin 128) (r : Fin 50000)
    (hr : r.val = t.val * 5000 + p.val) :
    ((cfg2.win 6).blk t).view.emb (ix2 p q) = (ix2 r q : S50000x128.Idx) := by
  obtain ⟨e0, e1⟩ := block_index2_6 t
  refine funext fun a => Fin.ext ?_
  match a with
  | ⟨0, _⟩ => show win2_6.index t (0 : Fin 2) * 5000 + 1 * p.val = r.val; rw [e0, hr]; omega
  | ⟨1, _⟩ => show win2_6.index t (1 : Fin 2) * 128 + 1 * q.val = q.val; rw [e1]; omega

/-- What point t writes back is block t of the convolution of the arrays the region finds. -/
theorem flushed2_eq (c : Dev nD) (t : Fin cfg2.N) :
    (dat2 (F := Ideal) V c).flushed 6 t
      = ((cfg2.win 6).blk t).view.read (Elt Ideal)
          (Spec.sage (V c main_v32) (V c main_v33) (V c main_v22) (V c main_arg8) (V c main_v34) (V c main_arg10)) := by
  show (cfg2.win 6).cut (grid2.coords t) ((dat2 V c).after 6 t) = _
  rw [after2_6]
  unfold out2_6
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S1x128) zero_offsets2]
  refine funext fun (j : S5000x128.Idx) => ?_
  obtain ⟨p, q, rfl⟩ : ∃ (p : Fin 5000) (q : Fin 128), j = ix2 p q := ⟨j 0, j 1, eq_ix2 j⟩
  have ht := point_lt2 t
  have hr : t.val * 5000 + p.val < 50000 := by have := p.isLt; omega
  show k2_pay1 (F := Ideal) (iblk2 V c 1 t) (iblk2 V c 0 t) (iblk2 V c 2 t) (iblk2 V c 3 t) (iblk2 V c 5 t) (iblk2 V c 4 t) (ix2 p q)
    = Spec.sage (V c main_v32) (V c main_v33) (V c main_v22) (V c main_arg8) (V c main_v34) (V c main_arg10)
        (((cfg2.win 6).blk t).view.emb (ix2 p q))
  rw [block2_6_emb t p q ⟨t.val * 5000 + p.val, hr⟩ rfl]
  exact sage_entry2 (V c main_v32) (V c main_v33) (V c main_v22) (V c main_arg8) (V c main_v34) (V c main_arg10)
    (iblk2 V c 0 t) (iblk2 V c 1 t) (iblk2 V c 2 t) (iblk2 V c 3 t) (iblk2 V c 4 t) (iblk2 V c 5 t) p q
    ⟨t.val * 5000 + p.val, hr⟩ (fun k => block2_0_apply V c t p k _ rfl) (block2_1_apply V c t p 0 _ rfl)
    (fun k => block2_2_apply V c t p k _ rfl) (fun k => block2_3_apply V c t q k) (block2_4_apply V c t 0 q)
    (fun k => block2_5_apply V c t q k)

theorem mem_block2 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v35).slice (win2_6.rect t)).set ↔ _
  rw [View.set_slice_whole, Rect.mem_set_unit]
  exact Iff.rfl

/-- Every row lies in the block of the point r / 5000, which writes it back. -/
theorem cover2 (i : S50000x128.Idx) :
    ∃ t : Fin cfg2.N, (cfg2.win 6).flush t = true ∧ i ∈ ((cfg2.win 6).blk t).view.set := by
  have hi0 : (i 0).val < 50000 := idx2_lt0 i
  have hi1 : (i 1).val < 128 := idx2_lt1 i
  have hN : cfg2.N = 10 := N_2
  obtain ⟨e0, e1⟩ := block_index2_6 ⟨(i 0).val / 5000, by rw [hN]; omega⟩
  refine ⟨⟨(i 0).val / 5000, by rw [hN]; omega⟩, flush2_6 _, ?_⟩
  rw [mem_block2]
  intro a
  match a with
  | ⟨0, _⟩ =>
    show win2_6.index _ (0 : Fin 2) * 5000 ≤ (i 0).val ∧ (i 0).val < win2_6.index _ (0 : Fin 2) * 5000 + 5000
    rw [e0]; show (i 0).val / 5000 * 5000 ≤ (i 0).val ∧ (i 0).val < (i 0).val / 5000 * 5000 + 5000; omega
  | ⟨1, _⟩ =>
    show win2_6.index _ (1 : Fin 2) * 128 ≤ (i 1).val ∧ (i 1).val < win2_6.index _ (1 : Fin 2) * 128 + 128
    rw [e1]; omega

/-- So the output array ends holding the rectified convolution of the six arrays. -/
theorem final2 (c : Dev nD) :
    (dat2 (F := Ideal) V c).arrAt 6 cfg2.N
      = Spec.sage (V c main_v32) (V c main_v33) (V c main_v22) (V c main_arg8) (V c main_v34) (V c main_arg10) :=
  (dat2 V c).arrAt_eq_of_cover 6
    (Spec.sage (V c main_v32) (V c main_v33) (V c main_v22) (V c main_arg8) (V c main_v34) (V c main_arg10))
    (fun t _ => flushed2_eq V c t) cover2

end Value2

end Cert.KernelIdeal.Hand

end
-- ==== Proof.PoolBlocks.lean ====
import proofs.«416290_j3246995276182_1_alg».proof.Proof.Spec
import Idealize.ShloMosaic.Lib.ValueIdx
import Mathlib.Algebra.BigOperators.Group.Finset.Basic
import Mathlib.Data.Fintype.BigOperators

noncomputable section

namespace Cert.Spec

open Idealize.ShloMosaic Idealize.ShloMosaic.ValueIdx
open scoped BigOperators

/-- Row p of block t. -/
def row (t : Fin 10) (p : Fin 5000) : Fin 50000 := ⟨5000 * t.val + p.val, by omega⟩

/-- What block t adds to an entry of the pooled array: the sum over its own rows. -/
def blockSum (h : Arr 50000 128) (w : Arr 50000 1) (batch : (⟨2, ![50000, 1]⟩ : Shape).Idx → BitVec 32) (t : Fin 10) : Arr 8 128 :=
  fun i => ∑ p : Fin 5000, if batch (ix2 (row t p) 0) = BitVec.ofNat 32 (i 0).val then h (ix2 (row t p) (i 1)) * w (ix2 (row t p) 0) else 0

/-- A row number is a block number and a position in the block: quotient and remainder by 5000. -/
def rowEquiv : Fin 10 × Fin 5000 ≃ Fin 50000 where
  toFun x := row x.1 x.2
  invFun r := (⟨r.val / 5000, by have := r.isLt; omega⟩, ⟨r.val % 5000, by omega⟩)
  left_inv x := by
    obtain ⟨t, p⟩ := x
    have ht := t.isLt
    have hp := p.isLt
    refine Prod.ext (Fin.ext ?_) (Fin.ext ?_)
    · show (5000 * t.val + p.val) / 5000 = t.val
      omega
    · show (5000 * t.val + p.val) % 5000 = p.val
      omega
  right_inv r := by
    refine Fin.ext ?_
    show 5000 * (r.val / 5000) + r.val % 5000 = r.val
    omega

/-- The pooled array is the sum of the ten blocks' contributions: the sum over all rows regrouped by block. -/
theorem pooled_eq_blocks (h : Arr 50000 128) (w : Arr 50000 1) (batch : (⟨2, ![50000, 1]⟩ : Shape).Idx → BitVec 32)
    (i : (⟨2, ![8, 128]⟩ : Shape).Idx) : pooled h w batch i = ∑ t : Fin 10, blockSum h w batch t i := by
  show (∑ r : Fin 50000, if batch (ix2 r 0) = BitVec.ofNat 32 (i 0).val then h (ix2 r (i 1)) * w (ix2 r 0) else 0)
    = ∑ t : Fin 10, ∑ p : Fin 5000,
        if batch (ix2 (row t p) 0) = BitVec.ofNat 32 (i 0).val then h (ix2 (row t p) (i 1)) * w (ix2 (row t p) 0) else 0
  rw [← Equiv.sum_comp rowEquiv, Fintype.sum_prod_type]
  rfl

/-- A running total that starts at block 0's contribution and adds one block at a time ends at the sum over the blocks. -/
theorem acc_blocks (S : (n : ℕ) → n < 10 → Arr 8 128) (B : Fin 10 → Arr 8 128)
    (h0 : ∀ i, S 0 (by decide) i = 0 + B 0 i)
    (hs : ∀ (n : ℕ) (hn : n + 1 < 10) (i), S (n + 1) hn i = S n (Nat.lt_of_succ_lt hn) i + B ⟨n + 1, hn⟩ i) :
    ∀ i, S 9 (by decide) i = ∑ t : Fin 10, B t i := by
  intro i
  have upto : ∀ (n : ℕ) (hn : n < 10),
      S n hn i = ∑ t ∈ Finset.range (n + 1), (if ht : t < 10 then B ⟨t, ht⟩ i else 0) := by
    intro n
    induction n with
    | zero =>
      intro hn
      rw [h0 i, zero_add, Finset.sum_range_one, dif_pos hn]
      rfl
    | succ n ih =>
      intro hn
      rw [hs n hn i, ih (Nat.lt_of_succ_lt hn), Finset.sum_range_succ _ (n + 1), dif_pos hn]
  rw [upto 9 (by decide), ← Fin.sum_univ_eq_sum_range (fun t => if ht : t < 10 then B ⟨t, ht⟩ i else 0) 10]
  exact Finset.sum_congr rfl fun t _ => dif_pos t.isLt

end Cert.Spec

end
-- ==== Proof.KernelIdealVal3.lean ====
import proofs.«416290_j3246995276182_1_alg».proof.Proof.KernelIdealReg3
import proofs.«416290_j3246995276182_1_alg».proof.Proof.KernelIdealPay
import proofs.«416290_j3246995276182_1_alg».proof.Proof.Spec
import proofs.«416290_j3246995276182_1_alg».proof.Proof.PoolBlocks
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.ShloMosaic.Tactic
open Idealize.ShloMosaic.Pipeline (Dat)
open scoped BigOperators

section Pieces

variable {F : FTy → Type} [FloatOps F]
variable (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8x64 .f32) (harg6 : arg6.IsWhole) (arg7 : Memref sig .tc .vmem S8x128 .f32) (harg7 : arg7.IsWhole)

theorem hz3 : (![0, 0] : Fin 2 → Nat) = fun _ => 0 := funext fun a => by fin_cases a <;> rfl

section
variable (hc0 : cond3_0 i) (hc1 : ¬cond3_1 i) (x0 : Vec F S5000x128 .f32) (x1 : Vec F S5000x1 .f32) (x2 : Vec F S5000x1 .i32) (x3 : Vec F S64x128 .f32) (x4 : Vec F S1x64 .f32)
theorem sout3_A :
    sout3_A_0 c i arg1 harg1 arg2 harg2 arg3 harg3 arg4 harg4 arg5 harg5 arg6 harg6 arg7 harg7 hc0 hc1 x0 x1 x2 x3 x4 = k3_pay2 x0 x1 x2 (k3_pay1 (F := F)) := by
  unfold sout3_A_0
  rw [View.read_writes_eq_canon _ _ _ (scover3_A_0 c i arg1 harg1 arg2 harg2 arg3 harg3 arg4 harg4 arg5 harg5 arg6 harg6 arg7 harg7 hc0 hc1 x0 x1 x2 x3 x4)]
  unfold kernelRun3_A
  dsimp only
  sl_unfold_words
  rw [View.canon_cons_unit_zero (S := S8x128) hz3, View.readCov_unit_zero (S := S8x128) _ hz3]
  simp only [View.readAt_eq_ld, harg1.read_unread, harg2.read_unread, harg3.read_unread, View.ld_unit_zero (S := S5000x128) hz3, View.ld_unit_zero (S := S5000x1) hz3, View.ld_unit_zero (S := S8x128) hz3, View.ld_unit_zero (S := S64x128) hz3, View.ld_unit_zero (S := S1x64) hz3]
end

section
variable (hc0 : ¬cond3_0 i) (hc1 : ¬cond3_1 i) (x0 : Vec F S5000x128 .f32) (x1 : Vec F S5000x1 .f32) (x2 : Vec F S5000x1 .i32) (x3 : Vec F S64x128 .f32) (x4 : Vec F S1x64 .f32) (xs0 : Vec F S8x128 .f32)
theorem sout3_B :
    sout3_B_0 c i arg1 harg1 arg2 harg2 arg3 harg3 arg4 harg4 arg5 harg5 arg6 harg6 arg7 harg7 hc0 hc1 x0 x1 x2 x3 x4 xs0 = k3_pay2 x0 x1 x2 xs0 := by
  unfold sout3_B_0
  rw [View.read_writes_eq_canon _ _ _ (scover3_B_0 c i arg1 harg1 arg2 harg2 arg3 harg3 arg4 harg4 arg5 harg5 arg6 harg6 arg7 harg7 hc0 hc1 x0 x1 x2 x3 x4 xs0)]
  unfold kernelRun3_B
  dsimp only
  sl_unfold_words
  rw [View.canon_unit_zero hz3]
  simp only [View.readAt_eq_ld, harg1.read_unread, harg2.read_unread, harg3.read_unread, harg7.read_unread, View.ld_unit_zero (S := S5000x128) hz3, View.ld_unit_zero (S := S5000x1) hz3, View.ld_unit_zero (S := S8x128) hz3, View.ld_unit_zero (S := S64x128) hz3, View.ld_unit_zero (S := S1x64) hz3]
end

section
variable (hc0 : ¬cond3_0 i) (hc1 : cond3_1 i) (x0 : Vec F S5000x128 .f32) (x1 : Vec F S5000x1 .f32) (x2 : Vec F S5000x1 .i32) (x3 : Vec F S64x128 .f32) (x4 : Vec F S1x64 .f32) (xs0 : Vec F S8x128 .f32)
theorem sout3_C :
    sout3_C_0 c i arg1 harg1 arg2 harg2 arg3 harg3 arg4 harg4 arg5 harg5 arg6 harg6 arg7 harg7 hc0 hc1 x0 x1 x2 x3 x4 xs0 = k3_pay2 x0 x1 x2 xs0 := by
  unfold sout3_C_0
  rw [View.read_writes_eq_canon _ _ _ (scover3_C_0 c i arg1 harg1 arg2 harg2 arg3 harg3 arg4 harg4 arg5 harg5 arg6 harg6 arg7 harg7 hc0 hc1 x0 x1 x2 x3 x4 xs0)]
  unfold kernelRun3_C
  dsimp only
  sl_unfold_words
  rw [View.canon_unit_zero hz3]
  simp only [View.readAt_eq_ld, harg1.read_unread, harg2.read_unread, harg3.read_unread, harg7.read_unread, View.ld_unit_zero (S := S5000x128) hz3, View.ld_unit_zero (S := S5000x1) hz3, View.ld_unit_zero (S := S8x128) hz3, View.ld_unit_zero (S := S64x128) hz3, View.ld_unit_zero (S := S1x64) hz3]
end

section
variable (hc0 : ¬cond3_0 i) (hc1 : cond3_1 i) (x0 : Vec F S5000x128 .f32) (x1 : Vec F S5000x1 .f32) (x2 : Vec F S5000x1 .i32) (x3 : Vec F S64x128 .f32) (x4 : Vec F S1x64 .f32) (xs0 : Vec F S8x128 .f32)
theorem out3_C :
    out3_C_5 c i arg1 harg1 arg2 harg2 arg3 harg3 arg4 harg4 arg5 harg5 arg6 harg6 arg7 harg7 hc0 hc1 x0 x1 x2 x3 x4 xs0 = k3_pay3 (k3_pay2 x0 x1 x2 xs0) x3 x4 := by
  unfold out3_C_5
  rw [View.read_writes_eq_canon _ _ _ (cover3_C_5 c i arg1 harg1 arg2 harg2 arg3 harg3 arg4 harg4 arg5 harg5 arg6 harg6 arg7 harg7 hc0 hc1 x0 x1 x2 x3 x4 xs0)]
  unfold kernelRun3_C
  dsimp only
  sl_unfold_words
  rw [View.canon_unit_zero hz3, View.readCov_unit_zero (S := S8x128) _ hz3]
  simp only [View.readAt_eq_ld, harg1.read_unread, harg2.read_unread, harg3.read_unread, harg4.read_unread, harg5.read_unread, harg7.read_unread, View.ld_unit_zero (S := S5000x128) hz3, View.ld_unit_zero (S := S5000x1) hz3, View.ld_unit_zero (S := S8x128) hz3, View.ld_unit_zero (S := S64x128) hz3, View.ld_unit_zero (S := S1x64) hz3]
end

end Pieces

section Value3

variable (V : (c : Dev nD) → (b : Ref sig .tc) → Buf (Elt Ideal) ((c : Thread nD τ).loc b))

theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem point_lt3 (t : Fin cfg3.N) : t.val < 10 := Nat.lt_of_lt_of_eq t.isLt N_3

theorem block3_0_apply (c : Dev nD) (t : Fin cfg3.N) (p : Fin 5000) (k : Fin 128) (r : Fin 50000)
    (hr : r.val = t.val * 5000 + p.val) :
    (iblk3 V c 0 t : Vec Ideal S5000x128 .f32) (ix2 p k) = (V c main_v35 : Spec.Arr 50000 128) (ix2 r k) := by
  obtain ⟨e0, e1, -⟩ := block_index3 t
  show (V c main_v35 : Spec.Arr 50000 128) (((cfg3.win 0).blk t).view.emb (ix2 p k)) = _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

theorem block3_1_apply (c : Dev nD) (t : Fin cfg3.N) (p : Fin 5000) (r : Fin 50000)
    (hr : r.val = t.val * 5000 + p.val) :
    (iblk3 V c 1 t : Vec Ideal S5000x1 .f32) (ix2 p 0) = (V c main_v51 : Spec.Arr 50000 1) (ix2 r 0) := by
  obtain ⟨-, -, e0, e1, -⟩ := block_index3 t
  show (V c main_v51 : Spec.Arr 50000 1) (((cfg3.win 1).blk t).view.emb (ix2 p 0)) = _
  refine congrArg _ (funext fun a => Fin.ext ?_)
  match a with
  | ⟨0, _⟩ => show win3_1.index t (0 : Fin 2) * 5000 + 1 * p.val = r.val; rw [e0, hr]; omega
  | ⟨1, _⟩ => show win3_1.index t (1 : Fin 2) * 1 + 1 * 0 = 0; rw [e1]

theorem block3_2_apply (c : Dev nD) (t : Fin cfg3.N) (p : Fin 5000) (r : Fin 50000)
    (hr : r.val = t.val * 5000 + p.val) :
    (iblk3 V c 2 t : Vec Ideal S5000x1 .i32) (ix2 p 0) = (V c main_v52 : (⟨2, ![50000, 1]⟩ : Shape).Idx → BitVec 32) (ix2 r 0) := by
  obtain ⟨-, -, -, -, e0, e1, -⟩ := block_index3 t
  show (V c main_v52 : (⟨2, ![50000, 1]⟩ : Shape).Idx → BitVec 32) (((cfg3.win 2).blk t).view.emb (ix2 p 0)) = _
  refine congrArg _ (funext fun a => Fin.ext ?_)
  match a with
  | ⟨0, _⟩ => show win3_2.index t (0 : Fin 2) * 5000 + 1 * p.val = r.val; rw [e0, hr]; omega
  | ⟨1, _⟩ => show win3_2.index t (1 : Fin 2) * 1 + 1 * 0 = 0; rw [e1]

theorem block3_3_apply (c : Dev nD) (t : Fin cfg3.N) (q : Fin 64) (k : Fin 128) :
    (iblk3 V c 3 t : Vec Ideal S64x128 .f32) (ix2 q k) = (V c main_arg13 : Spec.Arr 64 128) (ix2 q k) := by
  obtain ⟨-, -, -, -, -, -, e0, e1, -⟩ := block_index3 t
  show (V c main_arg13 : Spec.Arr 64 128) (((cfg3.win 3).blk t).view.emb (ix2 q k)) = _
  refine congrArg _ (funext fun a => Fin.ext ?_)
  match a with
  | ⟨0, _⟩ => show win3_3.index t (0 : Fin 2) * 64 + 1 * q.val = q.val; rw [e0]; omega
  | ⟨1, _⟩ => show win3_3.index t (1 : Fin 2) * 128 + 1 * k.val = k.val; rw [e1]; omega

theorem block3_4_apply (c : Dev nD) (t : Fin cfg3.N) (q : Fin 64) :
    (iblk3 V c 4 t : Vec Ideal S1x64 .f32) (ix2 0 q) = (V c main_v53 : Spec.Arr 1 64) (ix2 0 q) := by
  obtain ⟨-, -, -, -, -, -, -, -, e0, e1, -⟩ := block_index3 t
  show (V c main_v53 : Spec.Arr 1 64) (((cfg3.win 4).blk t).view.emb (ix2 0 q)) = _
  refine congrArg _ (funext fun a => Fin.ext ?_)
  match a with
  | ⟨0, _⟩ => show win3_4.index t (0 : Fin 2) * 1 + 1 * 0 = 0; rw [e0]
  | ⟨1, _⟩ => show win3_4.index t (1 : Fin 2) * 64 + 1 * q.val = q.val; rw [e1]; omega

theorem block3_5_emb (t : Fin cfg3.N) (g : Fin 8) (q : Fin 64) :
    ((cfg3.win 5).blk t).view.emb (ix2 g q) = (ix2 g q : S8x64.Idx) := by
  obtain ⟨-, -, -, -, -, -, -, -, -, -, e0, e1⟩ := block_index3 t
  refine funext fun a => Fin.ext ?_
  match a with
  | ⟨0, _⟩ => show win3_5.index t (0 : Fin 2) * 8 + 1 * g.val = g.val; rw [e0]; omega
  | ⟨1, _⟩ => show win3_5.index t (1 : Fin 2) * 64 + 1 * q.val = q.val; rw [e1]; omega

/-- One update at one entry, from blocks: the old entry plus block t's sum over its rows whose graph id is g. -/
theorem acc_entry (h : Spec.Arr 50000 128) (w : Spec.Arr 50000 1) (batch : (⟨2, ![50000, 1]⟩ : Shape).Idx → BitVec 32)
    (x0 : Vec Ideal S5000x128 .f32) (x1 : Vec Ideal S5000x1 .f32) (x2 : Vec Ideal S5000x1 .i32) (xs : Vec Ideal S8x128 .f32)
    (t : Fin 10) (g : Fin 8) (k : Fin 128)
    (h0 : ∀ p : Fin 5000, x0 (ix2 p k) = h (ix2 (Spec.row t p) k))
    (h1 : ∀ p : Fin 5000, x1 (ix2 p 0) = w (ix2 (Spec.row t p) 0))
    (h2 : ∀ p : Fin 5000, x2 (ix2 p 0) = batch (ix2 (Spec.row t p) 0)) :
    k3_pay2 (F := Ideal) x0 x1 x2 xs (ix2 g k) = (xs : Spec.Arr 8 128) (ix2 g k) + Spec.blockSum h w batch t (ix2 g k) := by
  refine (pay3_acc x0 x1 x2 xs g k).trans ?_
  refine congrArg ((xs : Spec.Arr 8 128) (ix2 g k) + ·) ?_
  show _ = ∑ p : Fin 5000, if batch (ix2 (Spec.row t p) 0) = BitVec.ofNat 32 g.val then h (ix2 (Spec.row t p) k) * w (ix2 (Spec.row t p) 0) else 0
  exact Finset.sum_congr rfl fun p _ => by rw [h0 p, h1 p, h2 p]

theorem upd_entry (c : Dev nD) (t : Fin cfg3.N) (xs : Vec Ideal S8x128 .f32) (g : Fin 8) (k : Fin 128) :
    k3_pay2 (F := Ideal) (iblk3 V c 0 t) (iblk3 V c 1 t) (iblk3 V c 2 t) xs (ix2 g k)
      = (xs : Spec.Arr 8 128) (ix2 g k) + Spec.blockSum (V c main_v35) (V c main_v51) (V c main_v52) ⟨t.val, point_lt3 t⟩ (ix2 g k) :=
  acc_entry (V c main_v35) (V c main_v51) (V c main_v52) (iblk3 V c 0 t) (iblk3 V c 1 t) (iblk3 V c 2 t) xs ⟨t.val, point_lt3 t⟩ g k
    (fun p => block3_0_apply V c t p k (Spec.row ⟨t.val, point_lt3 t⟩ p) (by show 5000 * t.val + p.val = t.val * 5000 + p.val; omega))
    (fun p => block3_1_apply V c t p (Spec.row ⟨t.val, point_lt3 t⟩ p) (by show 5000 * t.val + p.val = t.val * 5000 + p.val; omega))
    (fun p => block3_2_apply V c t p (Spec.row ⟨t.val, point_lt3 t⟩ p) (by show 5000 * t.val + p.val = t.val * 5000 + p.val; omega))

theorem outsA_snd (c : Dev nD) (t : Fin cfg3.N) (h0 : t.val % 10 = 0) (h1 : ¬t.val % 10 = 9) :
    (outsA (F := Ideal) V c t h0 h1).2 = k3_pay2 (iblk3 V c 0 t) (iblk3 V c 1 t) (iblk3 V c 2 t) (k3_pay1 (F := Ideal)) :=
  sout3_A (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)

theorem outsB_snd (c : Dev nD) (t : Fin cfg3.N) (h0 : ¬t.val % 10 = 0) (h1 : ¬t.val % 10 = 9) (xs : Vec Ideal S8x128 .f32) :
    (outsB (F := Ideal) V c t h0 h1 xs).2 = k3_pay2 (iblk3 V c 0 t) (iblk3 V c 1 t) (iblk3 V c 2 t) xs :=
  sout3_B (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs

theorem outsC_snd (c : Dev nD) (t : Fin cfg3.N) (h0 : ¬t.val % 10 = 0) (h1 : t.val % 10 = 9) (xs : Vec Ideal S8x128 .f32) :
    (outsC (F := Ideal) V c t h0 h1 xs).2 = k3_pay2 (iblk3 V c 0 t) (iblk3 V c 1 t) (iblk3 V c 2 t) xs :=
  sout3_C (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) xs

theorem outsC_fst (c : Dev nD) (t : Fin cfg3.N) (h0 : ¬t.val % 10 = 0) (h1 : t.val % 10 = 9) (xs : Vec Ideal S8x128 .f32) :
    (outsC (F := Ideal) V c t h0 h1 xs).1 = k3_pay3 (k3_pay2 (iblk3 V c 0 t) (iblk3 V c 1 t) (iblk3 V c 2 t) xs) (iblk3 V c 3 t) (iblk3 V c 4 t) :=
  out3_C (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) xs

abbrev accAt (c : Dev nD) (n : ℕ) (hn : n < 10) : Spec.Arr 8 128 :=
  (outsAt3 (F := Ideal) V c n (lt_of_lt_of_eq hn N_3.symm)).2

/-- After the first point the accumulator is zero plus block 0's contribution. -/
theorem accAt_zero (c : Dev nD) (i : (⟨2, ![8, 128]⟩ : Shape).Idx) :
    accAt V c 0 (by decide) i = 0 + Spec.blockSum (V c main_v35) (V c main_v51) (V c main_v52) 0 i := by
  obtain ⟨g, k, rfl⟩ : ∃ (g : Fin 8) (k : Fin 128), i = ix2 g k := ⟨i 0, i 1, eq_ix2 i⟩
  have hn : 0 < cfg3.N := lt_of_lt_of_eq (by decide : 0 < 10) N_3.symm
  have h0 : (⟨0, hn⟩ : Fin cfg3.N).val % 10 = 0 := rfl
  have h1 : ¬(⟨0, hn⟩ : Fin cfg3.N).val % 10 = 9 := by dsimp only; omega
  show ((outsAt3 (F := Ideal) V c (⟨0, hn⟩ : Fin cfg3.N).val (⟨0, hn⟩ : Fin cfg3.N).isLt).2 : Spec.Arr 8 128) (ix2 g k) = _
  rw [outsAt3_A V c ⟨0, hn⟩ h0 h1]
  refine (congrFun (outsA_snd V c ⟨0, hn⟩ h0 h1) (ix2 g k)).trans ?_
  refine (upd_entry V c ⟨0, hn⟩ (k3_pay1 (F := Ideal)) g k).trans ?_
  exact congrArg (· + Spec.blockSum (V c main_v35) (V c main_v51) (V c main_v52) 0 (ix2 g k)) (pay3_reset g k)

/-- After a later point it is what the point before left plus this block's contribution. -/
theorem accAt_succ (c : Dev nD) (n : ℕ) (hn : n + 1 < 10) (i : (⟨2, ![8, 128]⟩ : Shape).Idx) :
    accAt V c (n + 1) hn i = accAt V c n (Nat.lt_of_succ_lt hn) i + Spec.blockSum (V c main_v35) (V c main_v51) (V c main_v52) ⟨n + 1, hn⟩ i := by
  obtain ⟨g, k, rfl⟩ : ∃ (g : Fin 8) (k : Fin 128), i = ix2 g k := ⟨i 0, i 1, eq_ix2 i⟩
  have hN : n + 1 < cfg3.N := lt_of_lt_of_eq hn N_3.symm
  have h0 : ¬(⟨n + 1, hN⟩ : Fin cfg3.N).val % 10 = 0 := by dsimp only; omega
  show ((outsAt3 (F := Ideal) V c (⟨n + 1, hN⟩ : Fin cfg3.N).val (⟨n + 1, hN⟩ : Fin cfg3.N).isLt).2 : Spec.Arr 8 128) (ix2 g k) = _
  by_cases h1 : (⟨n + 1, hN⟩ : Fin cfg3.N).val % 10 = 9
  · rw [outsAt3_C V c ⟨n + 1, hN⟩ h0 h1]
    refine (congrFun (outsC_snd V c ⟨n + 1, hN⟩ h0 h1 _) (ix2 g k)).trans ?_
    exact upd_entry V c ⟨n + 1, hN⟩ (outsAt3 (F := Ideal) V c (n + 1 - 1) (Nat.lt_of_le_of_lt (Nat.sub_le _ _) hN)).2 g k
  · rw [outsAt3_B V c ⟨n + 1, hN⟩ h0 h1]
    refine (congrFun (outsB_snd V c ⟨n + 1, hN⟩ h0 h1 _) (ix2 g k)).trans ?_
    exact upd_entry V c ⟨n + 1, hN⟩ (outsAt3 (F := Ideal) V c (n + 1 - 1) (Nat.lt_of_le_of_lt (Nat.sub_le _ _) hN)).2 g k

/-- After the last point it is the pooled array of the specification. -/
theorem accAt_last (c : Dev nD) (i : (⟨2, ![8, 128]⟩ : Shape).Idx) :
    accAt V c 9 (by decide) i = Spec.pooled (V c main_v35) (V c main_v51) (V c main_v52) i := by
  rw [Spec.pooled_eq_blocks]
  exact Spec.acc_blocks (fun n hn => accAt V c n hn) (fun t => Spec.blockSum (V c main_v35) (V c main_v51) (V c main_v52) t)
    (fun i => accAt_zero V c i) (fun n hn i => accAt_succ V c n hn i) i

theorem upd_eq_outs (c : Dev nD) (t : Fin cfg3.N) (h0 : ¬t.val % 10 = 0) (h1 : t.val % 10 = 9) (g : Fin 8) (k : Fin 128) :
    ((outsAt3 (F := Ideal) V c t.val t.isLt).2 : Spec.Arr 8 128) (ix2 g k)
      = k3_pay2 (F := Ideal) (iblk3 V c 0 t) (iblk3 V c 1 t) (iblk3 V c 2 t) (outsAt3 (F := Ideal) V c (t.val - 1) (Nat.lt_of_le_of_lt (Nat.sub_le _ _) t.isLt)).2 (ix2 g k) := by
  rw [outsAt3_C V c t h0 h1]
  exact congrFun (outsC_snd V c t h0 h1 _) (ix2 g k)

theorem outs_congr (c : Dev nD) (n m : ℕ) (hn : n < cfg3.N) (hm : m < cfg3.N) (e : n = m) :
    outsAt3 (F := Ideal) V c n hn = outsAt3 (F := Ideal) V c m hm := by subst e; rfl

theorem outs_last (c : Dev nD) (t : Fin cfg3.N) (h1 : t.val % 10 = 9) (i : (⟨2, ![8, 128]⟩ : Shape).Idx) :
    ((outsAt3 (F := Ideal) V c t.val t.isLt).2 : Spec.Arr 8 128) i = Spec.pooled (V c main_v35) (V c main_v51) (V c main_v52) i := by
  have ht : t.val = 9 := by have := point_lt3 t; omega
  rw [outs_congr V c t.val 9 t.isLt (lt_of_lt_of_eq (by decide) N_3.symm) ht]
  exact accAt_last V c i

theorem upd_last (c : Dev nD) (t : Fin cfg3.N) (h0 : ¬t.val % 10 = 0) (h1 : t.val % 10 = 9) (g : Fin 8) (k : Fin 128) :
    k3_pay2 (F := Ideal) (iblk3 V c 0 t) (iblk3 V c 1 t) (iblk3 V c 2 t) (outsAt3 (F := Ideal) V c (t.val - 1) (Nat.lt_of_le_of_lt (Nat.sub_le _ _) t.isLt)).2 (ix2 g k)
      = Spec.pooled (V c main_v35) (V c main_v51) (V c main_v52) (ix2 g k) :=
  (upd_eq_outs V c t h0 h1 g k).symm.trans (outs_last V c t h1 (ix2 g k))

/-- If the accumulator holds the pooled array and the other blocks are the output weight and the bias row, the projection at (g, q) is the pooling layer's entry. -/
theorem pool_entry (h : Spec.Arr 50000 128) (w : Spec.Arr 50000 1) (batch : (⟨2, ![50000, 1]⟩ : Shape).Idx → BitVec 32)
    (wout : Spec.Arr 64 128) (bout : Spec.Arr 1 64)
    (xs : Vec Ideal S8x128 .f32) (x3 : Vec Ideal S64x128 .f32) (x4 : Vec Ideal S1x64 .f32) (g : Fin 8) (q : Fin 64)
    (hs : ∀ k : Fin 128, xs (ix2 g k) = Spec.pooled h w batch (ix2 g k))
    (h3 : ∀ k : Fin 128, x3 (ix2 q k) = wout (ix2 q k))
    (h4 : x4 (ix2 0 q) = bout (ix2 0 q)) :
    k3_pay3 (F := Ideal) xs x3 x4 (ix2 g q) = Spec.pool h w batch wout bout (ix2 g q) := by
  refine (pay3_out xs x3 x4 g q).trans ?_
  show _ = (∑ k : Fin 128, Spec.pooled h w batch (ix2 g k) * wout (ix2 q k)) + bout (ix2 0 q)
  rw [h4]
  exact congrArg (· + bout (ix2 0 q)) (Finset.sum_congr rfl fun k _ => by rw [hs k, h3 k])

/-- What the one point that writes back, the last, writes is the pooling layer of the arrays the region finds. -/
theorem flushed3_eq (c : Dev nD) (t : Fin cfg3.N) (hf : (cfg3.win 5).flush t = true) :
    (dat3 (F := Ideal) V c).flushed 5 t
      = ((cfg3.win 5).blk t).view.read (Elt Ideal) (Spec.pool (V c main_v35) (V c main_v51) (V c main_v52) (V c main_arg13) (V c main_v53)) := by
  have h1 : t.val % 10 = 9 := (flush3_5 t).mp hf
  have h0 : ¬t.val % 10 = 0 := by omega
  show (cfg3.win 5).cut (grid3.coords t) ((dat3 V c).after 5 t) = _
  rw [after3_5, outsAt3_C V c t h0 h1]
  refine funext fun (j : S8x64.Idx) => ?_
  obtain ⟨g, q, rfl⟩ : ∃ (g : Fin 8) (q : Fin 64), j = ix2 g q := ⟨j 0, j 1, eq_ix2 j⟩
  show (outsC (F := Ideal) V c t h0 h1 (outsAt3 (F := Ideal) V c (t.val - 1) (Nat.lt_of_le_of_lt (Nat.sub_le _ _) t.isLt)).2).1 (ix2 g q)
    = Spec.pool (V c main_v35) (V c main_v51) (V c main_v52) (V c main_arg13) (V c main_v53) (((cfg3.win 5).blk t).view.emb (ix2 g q))
  rw [block3_5_emb t g q]
  refine (congrFun (outsC_fst V c t h0 h1 _) (ix2 g q)).trans ?_
  exact pool_entry (V c main_v35) (V c main_v51) (V c main_v52) (V c main_arg13) (V c main_v53)
    (k3_pay2 (F := Ideal) (iblk3 V c 0 t) (iblk3 V c 1 t) (iblk3 V c 2 t) (outsAt3 (F := Ideal) V c (t.val - 1) (Nat.lt_of_le_of_lt (Nat.sub_le _ _) t.isLt)).2) (iblk3 V c 3 t) (iblk3 V c 4 t) g q
    (fun k => upd_last V c t h0 h1 g k) (fun k => block3_3_apply V c t q k) (block3_4_apply V c t q)

theorem mem_block3 (t : Fin cfg3.N) (i : S8x64.Idx) :
    i ∈ ((cfg3.win 5).blk t).view.set ↔ ∀ a : Fin 2, win3_5.index t a * S8x64.size a ≤ (i a).val
      ∧ (i a).val < win3_5.index t a * S8x64.size a + S8x64.size a := by
  show i ∈ ((View.whole main_v54).slice (win3_5.rect t)).set ↔ _
  rw [View.set_slice_whole, Rect.mem_set_unit]
  exact Iff.rfl

theorem cover3 (i : S8x64.Idx) :
    ∃ t : Fin cfg3.N, (cfg3.win 5).flush t = true ∧ i ∈ ((cfg3.win 5).blk t).view.set := by
  have hi0 : (i 0).val < 8 := idx2_lt0 i
  have hi1 : (i 1).val < 64 := idx2_lt1 i
  obtain ⟨-, -, -, -, -, -, -, -, -, -, e0, e1⟩ := block_index3 t3_9
  refine ⟨t3_9, (flush3_5 t3_9).mpr rfl, ?_⟩
  rw [mem_block3]
  intro a
  match a with
  | ⟨0, _⟩ =>
    show win3_5.index _ (0 : Fin 2) * 8 ≤ (i 0).val ∧ (i 0).val < win3_5.index _ (0 : Fin 2) * 8 + 8
    rw [e0]; omega
  | ⟨1, _⟩ =>
    show win3_5.index _ (1 : Fin 2) * 64 ≤ (i 1).val ∧ (i 1).val < win3_5.index _ (1 : Fin 2) * 64 + 64
    rw [e1]; omega

/-- So the output array ends holding the pooling layer. -/
theorem final3 (c : Dev nD) :
    (dat3 (F := Ideal) V c).arrAt 5 cfg3.N = Spec.pool (V c main_v35) (V c main_v51) (V c main_v52) (V c main_arg13) (V c main_v53) :=
  (dat3 V c).arrAt_eq_of_cover 5 (Spec.pool (V c main_v35) (V c main_v51) (V c main_v52) (V c main_arg13) (V c main_v53))
    (fun t ht => flushed3_eq V c t ht) cover3

end Value3

end Cert.KernelIdeal.Hand

end
-- ==== Proof.RefLayers.lean ====
import proofs.«416290_j3246995276182_1_alg».proof.Proof.Gen.ReferenceIdeal.Read
import proofs.«416290_j3246995276182_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx
open scoped BigOperators

/-- Read at one entry, the reference's product with the transposed weight plus the twice-broadcast bias is the embedding layer. -/
theorem ref_embed (x0 : (⟨S50000x300, .f32⟩ : BufTy).Contents (Elt Ideal)) (x3 : (⟨S128x300, .f32⟩ : BufTy).Contents (Elt Ideal))
    (x4 : (⟨S128, .f32⟩ : BufTy).Contents (Elt Ideal)) (b2 : Spec.Arr 1 128)
    (hb : ∀ q : Fin 128, b2 (ix2 0 q) = x4 (ix1 q)) :
    val_main_v8 (F := Ideal) x0 x3 x4 = Spec.embed x0 x3 b2 := by
  funext i
  obtain ⟨p, q, rfl⟩ : ∃ (p : Fin 50000) (q : Fin 128), i = ix2 p q := ⟨i 0, i 1, eq_ix2 i⟩
  rw [val_main_v8_apply, val_main_v5_apply, val_main_v7_apply, val_main_v6_apply]
  have eb : idx_main_v6 (idx_main_v7 (ix2 p q)) = ix1 q :=
    funext fun a => Fin.ext (by match a with | ⟨0, _⟩ => rfl)
  rw [eb, ← hb q, Ideal.addf_def]
  show _ = (∑ k : Fin 300, x0 (ix2 p k) * x3 (ix2 q k)) + b2 (ix2 0 q)
  congr 1
  refine Finset.sum_congr rfl fun k _ => ?_
  have el : lidx_main_v5 (ix2 p q) k = ix2 p k :=
    funext fun a => Fin.ext (by match a with | ⟨0, _⟩ => rfl | ⟨1, _⟩ => rfl)
  have er : idx_main_v4 (ridx_main_v5 (ix2 p q) k) = ix2 q k :=
    funext fun a => Fin.ext (by match a with | ⟨0, _⟩ => rfl | ⟨1, _⟩ => rfl)
  rw [val_main_v4_apply, el, er]

/-- Read at one entry, the reference's first convolution (mean of the neighbours, two products, bias, rectifier) is `sage` of its operands. -/
theorem ref_sage0 (x0 : (⟨S50000x300, .f32⟩ : BufTy).Contents (Elt Ideal)) (x1 : (⟨S2x800000, .i32⟩ : BufTy).Contents (Elt Ideal))
    (x3 : (⟨S128x300, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (deg2 : Spec.Arr 50000 1) (bl2 : Spec.Arr 1 128)
    (hd : ∀ r : Fin 50000, deg2 (ix2 r 0) = val_main_v22 (F := Ideal) x1 (ix1 r))
    (hbl : ∀ q : Fin 128, bl2 (ix2 0 q) = x6 (ix1 q)) :
    val_main_v36 (F := Ideal) x0 x1 x3 x4 x5 x6 x7
      = Spec.sage (val_main_v18 (F := Ideal) x0 x1 x3 x4) deg2 (val_main_v8 (F := Ideal) x0 x3 x4) x5 bl2 x7 := by
  funext i
  obtain ⟨p, q, rfl⟩ : ∃ (p : Fin 50000) (q : Fin 128), i = ix2 p q := ⟨i 0, i 1, eq_ix2 i⟩
  rw [val_main_v36_apply, val_main_v35_apply, val_main_v32_apply, val_main_v29_apply, val_main_v34_apply,
    val_main_v31_apply, val_main_v30_apply, val_main_call0_v0_apply, val_main_call0_cst_apply]
  generalize val_main_v8 (F := Ideal) x0 x3 x4 = H
  have eb : idx_main_v30 (idx_main_v31 (ix2 p q)) = ix1 q :=
    funext fun a => Fin.ext (by match a with | ⟨0, _⟩ => rfl)
  have e1 : (∑ k : Fin 128, val_main_v27 (F := Ideal) x0 x1 x3 x4 (lidx_main_v29 (ix2 p q) k)
        * val_main_v28 (F := Ideal) x5 (ridx_main_v29 (ix2 p q) k))
      = ∑ k : Fin 128, Ideal.div (val_main_v18 (F := Ideal) x0 x1 x3 x4 (ix2 p k)) (max (deg2 (ix2 p 0)) Spec.one)
          * x5 (ix2 q k) := by
    refine Finset.sum_congr rfl fun k _ => ?_
    have el : lidx_main_v29 (ix2 p q) k = ix2 p k :=
      funext fun a => Fin.ext (by match a with | ⟨0, _⟩ => rfl | ⟨1, _⟩ => rfl)
    have er : idx_main_v28 (ridx_main_v29 (ix2 p q) k) = ix2 q k :=
      funext fun a => Fin.ext (by match a with | ⟨0, _⟩ => rfl | ⟨1, _⟩ => rfl)
    have ed : idx_main_v25 (idx_main_v26 (ix2 p k)) = ix1 p :=
      funext fun a => Fin.ext (by match a with | ⟨0, _⟩ => rfl)
    rw [el, val_main_v28_apply, er, val_main_v27_apply]
    generalize val_main_v18 (F := Ideal) x0 x1 x3 x4 = A
    rw [val_main_v26_apply, val_main_v25_apply, ed, val_main_v24_apply, val_main_v23_apply, val_main_cst_3_apply, ← hd p,
      Ideal.hostDivf_def, Ideal.maximumf_def, Ideal.ofBits_def]
  have e2 : (∑ k : Fin 128, H (lidx_main_v34 (ix2 p q) k) * val_main_v33 (F := Ideal) x7 (ridx_main_v34 (ix2 p q) k))
      = ∑ k : Fin 128, H (ix2 p k) * x7 (ix2 q k) := by
    refine Finset.sum_congr rfl fun k _ => ?_
    have el : lidx_main_v34 (ix2 p q) k = ix2 p k :=
      funext fun a => Fin.ext (by match a with | ⟨0, _⟩ => rfl | ⟨1, _⟩ => rfl)
    have er : idx_main_v33 (ridx_main_v34 (ix2 p q) k) = ix2 q k :=
      funext fun a => Fin.ext (by match a with | ⟨0, _⟩ => rfl | ⟨1, _⟩ => rfl)
    rw [el, val_main_v33_apply, er]
  rw [e1, e2, eb, ← hbl q, Ideal.maximumf_def, Ideal.addf_def, Ideal.addf_def, Ideal.ofBits_def]
  generalize val_main_v18 (F := Ideal) x0 x1 x3 x4 = A
  rfl

/-- The same for the second convolution. -/
theorem ref_sage1 (x0 : (⟨S50000x300, .f32⟩ : BufTy).Contents (Elt Ideal)) (x1 : (⟨S2x800000, .i32⟩ : BufTy).Contents (Elt Ideal))
    (x3 : (⟨S128x300, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (deg2 : Spec.Arr 50000 1) (bl2 : Spec.Arr 1 128)
    (hd : ∀ r : Fin 50000, deg2 (ix2 r 0) = val_main_v50 (F := Ideal) x1 (ix1 r))
    (hbl : ∀ q : Fin 128, bl2 (ix2 0 q) = x9 (ix1 q)) :
    val_main_v64 (F := Ideal) x0 x1 x3 x4 x5 x6 x7 x8 x9 x10
      = Spec.sage (val_main_v46 (F := Ideal) x0 x1 x3 x4 x5 x6 x7) deg2 (val_main_v36 (F := Ideal) x0 x1 x3 x4 x5 x6 x7)
          x8 bl2 x10 := by
  funext i
  obtain ⟨p, q, rfl⟩ : ∃ (p : Fin 50000) (q : Fin 128), i = ix2 p q := ⟨i 0, i 1, eq_ix2 i⟩
  rw [val_main_v64_apply, val_main_v63_apply, val_main_v60_apply, val_main_v57_apply, val_main_v62_apply,
    val_main_v59_apply, val_main_v58_apply, val_main_call1_v0_apply, val_main_call1_cst_apply]
  generalize val_main_v36 (F := Ideal) x0 x1 x3 x4 x5 x6 x7 = H
  have eb : idx_main_v58 (idx_main_v59 (ix2 p q)) = ix1 q :=
    funext fun a => Fin.ext (by match a with | ⟨0, _⟩ => rfl)
  have e1 : (∑ k : Fin 128, val_main_v55 (F := Ideal) x0 x1 x3 x4 x5 x6 x7 (lidx_main_v57 (ix2 p q) k)
        * val_main_v56 (F := Ideal) x8 (ridx_main_v57 (ix2 p q) k))
      = ∑ k : Fin 128, Ideal.div (val_main_v46 (F := Ideal) x0 x1 x3 x4 x5 x6 x7 (ix2 p k))
            (max (deg2 (ix2 p 0)) Spec.one) * x8 (ix2 q k) := by
    refine Finset.sum_congr rfl fun k _ => ?_
    have el : lidx_main_v57 (ix2 p q) k = ix2 p k :=
      funext fun a => Fin.ext (by match a with | ⟨0, _⟩ => rfl | ⟨1, _⟩ => rfl)
    have er : idx_main_v56 (ridx_main_v57 (ix2 p q) k) = ix2 q k :=
      funext fun a => Fin.ext (by match a with | ⟨0, _⟩ => rfl | ⟨1, _⟩ => rfl)
    have ed : idx_main_v53 (idx_main_v54 (ix2 p k)) = ix1 p :=
      funext fun a => Fin.ext (by match a with | ⟨0, _⟩ => rfl)
    rw [el, val_main_v56_apply, er, val_main_v55_apply]
    generalize val_main_v46 (F := Ideal) x0 x1 x3 x4 x5 x6 x7 = A
    rw [val_main_v54_apply, val_main_v53_apply, ed, val_main_v52_apply, val_main_v51_apply, val_main_cst_9_apply, ← hd p,
      Ideal.hostDivf_def, Ideal.maximumf_def, Ideal.ofBits_def]
  have e2 : (∑ k : Fin 128, H (lidx_main_v62 (ix2 p q) k) * val_main_v61 (F := Ideal) x10 (ridx_main_v62 (ix2 p q) k))
      = ∑ k : Fin 128, H (ix2 p k) * x10 (ix2 q k) := by
    refine Finset.sum_congr rfl fun k _ => ?_
    have el : lidx_main_v62 (ix2 p q) k = ix2 p k :=
      funext fun a => Fin.ext (by match a with | ⟨0, _⟩ => rfl | ⟨1, _⟩ => rfl)
    have er : idx_main_v61 (ridx_main_v62 (ix2 p q) k) = ix2 q k :=
      funext fun a => Fin.ext (by match a with | ⟨0, _⟩ => rfl | ⟨1, _⟩ => rfl)
    rw [el, val_main_v61_apply, er]
  rw [e1, e2, eb, ← hbl q, Ideal.maximumf_def, Ideal.addf_def, Ideal.addf_def, Ideal.ofBits_def]
  generalize val_main_v46 (F := Ideal) x0 x1 x3 x4 x5 x6 x7 = A
  rfl

end Cert.ReferenceIdeal.RefValue

end
-- ==== Proof.RefPool.lean ====
import proofs.«416290_j3246995276182_1_alg».proof.Proof.Gen.ReferenceIdeal.Read
import proofs.«416290_j3246995276182_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx
open scoped BigOperators

theorem siIdx0 (r : Fin 50000) (k' : Fin 128) (h : 0 < scatter_S8x128_S50000x1_S50000x128_1_0_0_1.scatterDimsToOperandDims.length) :
    scatter_S8x128_S50000x1_S50000x128_1_0_0_1.siIdx (ix2 r k') ⟨0, h⟩ = ix2 r 0 :=
  funext fun a => Fin.ext (by match a with | ⟨0, _⟩ => rfl | ⟨1, _⟩ => rfl)

theorem start0 (idx : IVec S50000x1 32) (r : Fin 50000) (k' : Fin 128) :
    scatter_S8x128_S50000x1_S50000x128_1_0_0_1.start (ix2 r k') idx 0 = (idx (ix2 r 0)).toInt := by
  rw [← siIdx0 r k' Nat.one_pos]; rfl

theorem start1 (idx : IVec S50000x1 32) (j : S50000x128.Idx) :
    scatter_S8x128_S50000x1_S50000x128_1_0_0_1.start j idx 1 = 0 := rfl

theorem win0 (j : S50000x128.Idx) :
    scatter_S8x128_S50000x1_S50000x128_1_0_0_1.window j 0 = 0 := rfl

theorem win1 (r : Fin 50000) (k' : Fin 128) :
    scatter_S8x128_S50000x1_S50000x128_1_0_0_1.window (ix2 r k') 1 = k'.val := rfl

theorem toInt_ofNat_small : ∀ g : Fin 8, (BitVec.ofNat 32 g.val).toInt = (g.val : Int) := by decide

/-- A word read as a signed integer is g < 8 exactly when it is the word of g. -/
theorem toInt_eq_iff (b : BitVec 32) (g : Fin 8) : b.toInt = (g.val : Int) ↔ b = BitVec.ofNat 32 g.val := by
  constructor
  · intro h
    apply BitVec.eq_of_toInt_eq
    rw [h, toInt_ofNat_small]
  · rintro rfl
    exact toInt_ofNat_small g

/-- An update (r, k') lands inside the 8 x 128 array exactly when the id of row r, read as a signed word, is one of 0 .. 7. -/
theorem inRange_pool (idx : IVec S50000x1 32) (r : Fin 50000) (k' : Fin 128) :
    (∀ a, 0 ≤ scatter_S8x128_S50000x1_S50000x128_1_0_0_1.start (ix2 r k') idx a
              + scatter_S8x128_S50000x1_S50000x128_1_0_0_1.window (ix2 r k') a
          ∧ scatter_S8x128_S50000x1_S50000x128_1_0_0_1.start (ix2 r k') idx a
              + scatter_S8x128_S50000x1_S50000x128_1_0_0_1.window (ix2 r k') a < S8x128.size a)
      ↔ (0 ≤ (idx (ix2 r 0)).toInt ∧ (idx (ix2 r 0)).toInt < 8) := by
  constructor
  · intro h
    have h0 := h 0
    rw [start0, win0] at h0
    change 0 ≤ (idx (ix2 r 0)).toInt + ((0 : ℕ) : ℤ) ∧ (idx (ix2 r 0)).toInt + ((0 : ℕ) : ℤ) < ((8 : ℕ) : ℤ) at h0
    omega
  · intro h a
    match a with
    | ⟨0, _⟩ =>
      change 0 ≤ scatter_S8x128_S50000x1_S50000x128_1_0_0_1.start (ix2 r k') idx 0
              + ((scatter_S8x128_S50000x1_S50000x128_1_0_0_1.window (ix2 r k') 0 : ℕ) : ℤ)
          ∧ scatter_S8x128_S50000x1_S50000x128_1_0_0_1.start (ix2 r k') idx 0
              + ((scatter_S8x128_S50000x1_S50000x128_1_0_0_1.window (ix2 r k') 0 : ℕ) : ℤ) < ((8 : ℕ) : ℤ)
      rw [start0, win0]
      omega
    | ⟨1, _⟩ =>
      change 0 ≤ scatter_S8x128_S50000x1_S50000x128_1_0_0_1.start (ix2 r k') idx 1
              + ((scatter_S8x128_S50000x1_S50000x128_1_0_0_1.window (ix2 r k') 1 : ℕ) : ℤ)
          ∧ scatter_S8x128_S50000x1_S50000x128_1_0_0_1.start (ix2 r k') idx 1
              + ((scatter_S8x128_S50000x1_S50000x128_1_0_0_1.window (ix2 r k') 1 : ℕ) : ℤ) < ((128 : ℕ) : ℤ)
      rw [start1, win1]
      have := k'.isLt
      omega

/-- It lands on (g, k) exactly when that id is the word of g and k' = k. -/
theorem resultIdx?_pool (idx : IVec S50000x1 32) (r : Fin 50000) (k' : Fin 128) (g : Fin 8) (k : Fin 128) :
    scatter_S8x128_S50000x1_S50000x128_1_0_0_1.resultIdx? (ix2 r k') idx = some (ix2 g k)
      ↔ (idx (ix2 r 0) = BitVec.ofNat 32 g.val ∧ k' = k) := by
  unfold ScatterDims.resultIdx?
  by_cases h : (0 ≤ (idx (ix2 r 0)).toInt ∧ (idx (ix2 r 0)).toInt < 8)
  · rw [dif_pos ((inRange_pool idx r k').2 h)]
    constructor
    · intro e
      have e' := Option.some.inj e
      have e0 : ((scatter_S8x128_S50000x1_S50000x128_1_0_0_1.start (ix2 r k') idx 0
              + ((scatter_S8x128_S50000x1_S50000x128_1_0_0_1.window (ix2 r k') 0 : ℕ) : ℤ)).toNat) = g.val :=
        congrArg (fun f : S8x128.Idx => (f 0).val) e'
      have e1 : ((scatter_S8x128_S50000x1_S50000x128_1_0_0_1.start (ix2 r k') idx 1
              + ((scatter_S8x128_S50000x1_S50000x128_1_0_0_1.window (ix2 r k') 1 : ℕ) : ℤ)).toNat) = k.val :=
        congrArg (fun f : S8x128.Idx => (f 1).val) e'
      rw [start0, win0] at e0
      rw [start1, win1] at e1
      refine ⟨(toInt_eq_iff _ g).1 (by omega), Fin.ext (by omega)⟩
    · rintro ⟨hb, rfl⟩
      congr 1
      funext a
      apply Fin.ext
      match a with
      | ⟨0, _⟩ =>
        show ((scatter_S8x128_S50000x1_S50000x128_1_0_0_1.start (ix2 r k') idx 0
              + ((scatter_S8x128_S50000x1_S50000x128_1_0_0_1.window (ix2 r k') 0 : ℕ) : ℤ)).toNat) = g.val
        rw [start0, win0, hb, toInt_ofNat_small]
        omega
      | ⟨1, _⟩ =>
        show ((scatter_S8x128_S50000x1_S50000x128_1_0_0_1.start (ix2 r k') idx 1
              + ((scatter_S8x128_S50000x1_S50000x128_1_0_0_1.window (ix2 r k') 1 : ℕ) : ℤ)).toNat) = k'.val
        rw [start1, win1]
        omega
  · rw [dif_neg (fun hh => h ((inRange_pool idx r k').1 hh))]
    constructor
    · intro e; cases e
    · rintro ⟨hb, _⟩
      exfalso; apply h
      rw [hb, toInt_ofNat_small]
      have := g.isLt
      omega

/-- The accumulating scatter of the weighted rows by graph id is the per-graph sum of the specification. -/
theorem ref_pooled (x0 : (⟨S50000x300, .f32⟩ : BufTy).Contents (Elt Ideal)) (x1 : (⟨S2x800000, .i32⟩ : BufTy).Contents (Elt Ideal))
    (x2 : (⟨S50000, .i32⟩ : BufTy).Contents (Elt Ideal)) (x3 : (⟨S128x300, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S1x128, .f32⟩ : BufTy).Contents (Elt Ideal)) (x12 : (⟨S1, .f32⟩ : BufTy).Contents (Elt Ideal))
    (batch2 : (⟨2, ![50000, 1]⟩ : Shape).Idx → BitVec 32)
    (hbt : ∀ r : Fin 50000, batch2 (ix2 r 0) = x2 (ix1 r)) :
    val_main_v85 (F := Ideal) x0 x1 x2 x3 x4 x5 x6 x7 x8 x9 x10 x11 x12
      = Spec.pooled (val_main_v64 (F := Ideal) x0 x1 x3 x4 x5 x6 x7 x8 x9 x10) (val_main_v80 (F := Ideal) x0 x1 x3 x4 x5 x6 x7 x8 x9 x10 x11 x12) batch2 := by
  funext i
  obtain ⟨g, k, rfl⟩ : ∃ (g : Fin 8) (k : Fin 128), i = ix2 g k := ⟨i 0, i 1, eq_ix2 i⟩
  have hupd : ∀ (r : Fin 50000) (k' : Fin 128), val_main_v82 (F := Ideal) x0 x1 x3 x4 x5 x6 x7 x8 x9 x10 x11 x12 (ix2 r k')
      = val_main_v64 (F := Ideal) x0 x1 x3 x4 x5 x6 x7 x8 x9 x10 (ix2 r k') * val_main_v80 (F := Ideal) x0 x1 x3 x4 x5 x6 x7 x8 x9 x10 x11 x12 (ix2 r 0) := by
    intro r k'
    have e : idx_main_v81 (ix2 r k') = ix2 r 0 :=
      funext fun a => Fin.ext (by match a with | ⟨0, _⟩ => rfl | ⟨1, _⟩ => rfl)
    rw [val_main_v82_apply, val_main_v81_apply, e]
    rfl
  have hidx : ∀ r : Fin 50000, val_main_v84 (F := Ideal) x2 (ix2 r 0) = batch2 (ix2 r 0) := by
    intro r
    have e : idx_main_v84 (ix2 r 0) = ix1 r :=
      funext fun a => Fin.ext (by match a with | ⟨0, _⟩ => rfl)
    rw [val_main_v84_apply, hbt, e]
  unfold val_main_v85 Spec.pooled
  generalize val_main_v82 (F := Ideal) x0 x1 x3 x4 x5 x6 x7 x8 x9 x10 x11 x12 = upd at hupd ⊢
  generalize val_main_v84 (F := Ideal) x2 = idx at hidx ⊢
  generalize val_main_v64 (F := Ideal) x0 x1 x3 x4 x5 x6 x7 x8 x9 x10 = h at hupd ⊢
  generalize val_main_v80 (F := Ideal) x0 x1 x3 x4 x5 x6 x7 x8 x9 x10 x11 x12 = w at hupd ⊢
  show Ideal.hostScatterAdd scatter_S8x128_S50000x1_S50000x128_1_0_0_1 (val_main_v83 (F := Ideal)) idx upd (ix2 g k) = _
  unfold Ideal.hostScatterAdd
  rw [val_main_v83_apply, val_main_cst_13_apply]
  rw [Ideal.ofBits_def, Ideal.ofBits_zero_f32, zero_add, Finset.sum_filter, sum_idx2]
  apply Finset.sum_congr rfl
  intro r _
  simp only [resultIdx?_pool, hidx]
  by_cases hb : batch2 (ix2 r 0) = BitVec.ofNat 32 g.val
  · simp only [hb, true_and]
    rw [Finset.sum_ite_eq' Finset.univ k, if_pos (Finset.mem_univ k), hupd, if_pos trivial]
  · simp only [hb, false_and, if_false, Finset.sum_const_zero]

/-- The reference's result: the pooled array times the transposed output weight plus the broadcast bias. -/
theorem ref_pool (x0 : (⟨S50000x300, .f32⟩ : BufTy).Contents (Elt Ideal)) (x1 : (⟨S2x800000, .i32⟩ : BufTy).Contents (Elt Ideal))
    (x2 : (⟨S50000, .i32⟩ : BufTy).Contents (Elt Ideal)) (x3 : (⟨S128x300, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S1x128, .f32⟩ : BufTy).Contents (Elt Ideal)) (x12 : (⟨S1, .f32⟩ : BufTy).Contents (Elt Ideal))
    (x13 : (⟨S64x128, .f32⟩ : BufTy).Contents (Elt Ideal)) (x14 : (⟨S64, .f32⟩ : BufTy).Contents (Elt Ideal))
    (batch2 : (⟨2, ![50000, 1]⟩ : Shape).Idx → BitVec 32) (bout2 : Spec.Arr 1 64)
    (hbt : ∀ r : Fin 50000, batch2 (ix2 r 0) = x2 (ix1 r)) (hbo : ∀ q : Fin 64, bout2 (ix2 0 q) = x14 (ix1 q)) :
    val_main_v90 (F := Ideal) x0 x1 x2 x3 x4 x5 x6 x7 x8 x9 x10 x11 x12 x13 x14
      = Spec.pool (val_main_v64 (F := Ideal) x0 x1 x3 x4 x5 x6 x7 x8 x9 x10) (val_main_v80 (F := Ideal) x0 x1 x3 x4 x5 x6 x7 x8 x9 x10 x11 x12) batch2 x13 bout2 := by
  funext i
  obtain ⟨g, q, rfl⟩ : ∃ (g : Fin 8) (q : Fin 64), i = ix2 g q := ⟨i 0, i 1, eq_ix2 i⟩
  have hb : val_main_v89 (F := Ideal) x14 (ix2 g q) = bout2 (ix2 0 q) := by
    have e1 : idx_main_v89 (ix2 g q) = ix2 0 q :=
      funext fun a => Fin.ext (by match a with | ⟨0, _⟩ => rfl | ⟨1, _⟩ => rfl)
    have e2 : idx_main_v88 (ix2 0 q) = ix1 q :=
      funext fun a => Fin.ext (by match a with | ⟨0, _⟩ => rfl)
    rw [val_main_v89_apply, e1, val_main_v88_apply, e2, hbo]
  have hl : ∀ k : Fin 128, lidx_main_v87 (ix2 g q) k = ix2 g k := fun k =>
    funext fun a => Fin.ext (by match a with | ⟨0, _⟩ => rfl | ⟨1, _⟩ => rfl)
  have hr : ∀ k : Fin 128, idx_main_v86 (ridx_main_v87 (ix2 g q) k) = ix2 q k := fun k =>
    funext fun a => Fin.ext (by match a with | ⟨0, _⟩ => rfl | ⟨1, _⟩ => rfl)
  rw [val_main_v90_apply, val_main_v87_apply, hb, ref_pooled x0 x1 x2 x3 x4 x5 x6 x7 x8 x9 x10 x11 x12 batch2 hbt]
  unfold Spec.pool
  generalize Spec.pooled (val_main_v64 (F := Ideal) x0 x1 x3 x4 x5 x6 x7 x8 x9 x10) (val_main_v80 (F := Ideal) x0 x1 x3 x4 x5 x6 x7 x8 x9 x10 x11 x12) batch2 = P
  rw [Ideal.addf_def]
  congr 1
  apply Finset.sum_congr rfl
  intro k _
  rw [val_main_v86_apply, hl, hr]

end Cert.ReferenceIdeal.RefValue

end
-- ==== Proof.BridgeAgg.lean ====
import proofs.«416290_j3246995276182_1_alg».proof.Proof.KernelIdealRun
import proofs.«416290_j3246995276182_1_alg».proof.Proof.Gen.ReferenceIdeal.Read
import proofs.«416290_j3246995276182_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.Bridge

open Cert.KernelIdeal.Hand Idealize.ShloMosaic Idealize.ShloMosaic.TcCoe Idealize.ShloMosaic.ValueIdx Idealize.ShloMosaic.StableHlo
open scoped BigOperators

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

set_option quotPrecheck false
local notation "x0" => m ((c : Thread Cert.KernelIdeal.nD Cert.KernelIdeal.τ).loc Cert.KernelIdeal.main_arg0)
local notation "x1" => m ((c : Thread Cert.KernelIdeal.nD Cert.KernelIdeal.τ).loc Cert.KernelIdeal.main_arg1)
local notation "x3" => m ((c : Thread Cert.KernelIdeal.nD Cert.KernelIdeal.τ).loc Cert.KernelIdeal.main_arg3)
local notation "x4" => m ((c : Thread Cert.KernelIdeal.nD Cert.KernelIdeal.τ).loc Cert.KernelIdeal.main_arg4)
local notation "x5" => m ((c : Thread Cert.KernelIdeal.nD Cert.KernelIdeal.τ).loc Cert.KernelIdeal.main_arg5)
local notation "x6" => m ((c : Thread Cert.KernelIdeal.nD Cert.KernelIdeal.τ).loc Cert.KernelIdeal.main_arg6)
local notation "x7" => m ((c : Thread Cert.KernelIdeal.nD Cert.KernelIdeal.τ).loc Cert.KernelIdeal.main_arg7)
local notation "x8" => m ((c : Thread Cert.KernelIdeal.nD Cert.KernelIdeal.τ).loc Cert.KernelIdeal.main_arg8)
local notation "x9" => m ((c : Thread Cert.KernelIdeal.nD Cert.KernelIdeal.τ).loc Cert.KernelIdeal.main_arg9)
local notation "x10" => m ((c : Thread Cert.KernelIdeal.nD Cert.KernelIdeal.τ).loc Cert.KernelIdeal.main_arg10)

theorem dst_at2 : W2 m ρ c (Proc.devRef .tc Cert.KernelIdeal.main_v3) = Cert.ReferenceIdeal.Read.val_main_v3 (F := Ideal) x1 := by
  rw [W2_of_ne m ρ c Cert.KernelIdeal.main_v3 (by decide)]
  show StableHlo.after Cert.KernelIdeal.GenP.hostOps0 (W0 m ρ c) (Proc.devRef .tc Cert.KernelIdeal.main_v3) = _
  simp only [Cert.KernelIdeal.GenP.hostOps0]
  after_results
  unfold Cert.ReferenceIdeal.Read.val_main_v3 Cert.ReferenceIdeal.Read.val_main_v2
  rfl

theorem src_at2 : W2 m ρ c (Proc.devRef .tc Cert.KernelIdeal.main_v1) = Cert.ReferenceIdeal.Read.val_main_v1 (F := Ideal) x1 := by
  rw [W2_of_ne m ρ c Cert.KernelIdeal.main_v1 (by decide)]
  show StableHlo.after Cert.KernelIdeal.GenP.hostOps0 (W0 m ρ c) (Proc.devRef .tc Cert.KernelIdeal.main_v1) = _
  simp only [Cert.KernelIdeal.GenP.hostOps0]
  after_results
  unfold Cert.ReferenceIdeal.Read.val_main_v1 Cert.ReferenceIdeal.Read.val_main_v0
  rfl

theorem bl0_row (q : Fin 128) :
    (W3 m ρ c (Proc.devRef .tc Cert.KernelIdeal.main_v21) : Cert.Spec.Arr 1 128) (ix2 0 q) = x6 (ix1 q) := by
  have e : (W3 m ρ c (Proc.devRef .tc Cert.KernelIdeal.main_v21) : Cert.Spec.Arr 1 128)
      = shapeCast ⟨2, ![1, 128]⟩ (W2 m ρ c (Proc.devRef .tc Cert.KernelIdeal.main_arg6) : (⟨1, ![128]⟩ : Shape).Idx → EReal)
          Cert.KernelIdeal.Gen.shapeCasts_S128_S1x128 := by
    show StableHlo.after Cert.KernelIdeal.GenP.hostOps1 (W2 m ρ c) (Proc.devRef .tc Cert.KernelIdeal.main_v21) = _
    simp only [Cert.KernelIdeal.GenP.hostOps1]
    after_results
    rfl
  have a := W2_args m ρ c Cert.KernelIdeal.main_arg6 (by decide)
  rw [e, shapeCast_a_1a_apply, a]

theorem deg_at3 : W3 m ρ c (Proc.devRef .tc Cert.KernelIdeal.main_v9) = Cert.ReferenceIdeal.Read.val_main_v22 (F := Ideal) x1 := by
  show StableHlo.after Cert.KernelIdeal.GenP.hostOps1 (W2 m ρ c) (Proc.devRef .tc Cert.KernelIdeal.main_v9) = _
  simp only [Cert.KernelIdeal.GenP.hostOps1]
  after_results
  rw [dst_at2]
  unfold Cert.ReferenceIdeal.Read.val_main_v22 Cert.ReferenceIdeal.Read.val_main_v21 Cert.ReferenceIdeal.Read.val_main_v20
    Cert.ReferenceIdeal.Read.val_main_v19 Cert.ReferenceIdeal.Read.val_main_cst_2 Cert.ReferenceIdeal.Read.val_main_cst_1
  generalize Cert.ReferenceIdeal.Read.val_main_v3 (F := Ideal) x1 = d
  rfl

/-- A rank-1 array reshaped to a column [a, 1] has, at (i, 0), its entry i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem deg0_eq (r : Fin 50000) :
    (W3 m ρ c (Proc.devRef .tc Cert.KernelIdeal.main_v20) : Cert.Spec.Arr 50000 1) (ix2 r 0)
      = Cert.ReferenceIdeal.Read.val_main_v22 (F := Ideal) x1 (ix1 r) := by
  have e : (W3 m ρ c (Proc.devRef .tc Cert.KernelIdeal.main_v20) : Cert.Spec.Arr 50000 1)
      = shapeCast ⟨2, ![50000, 1]⟩ (W3 m ρ c (Proc.devRef .tc Cert.KernelIdeal.main_v9) : (⟨1, ![50000]⟩ : Shape).Idx → EReal)
          Cert.KernelIdeal.Gen.shapeCasts_S50000_S50000x1 := by
    show StableHlo.after Cert.KernelIdeal.GenP.hostOps1 (W2 m ρ c) (Proc.devRef .tc Cert.KernelIdeal.main_v20) = _
    simp only [Cert.KernelIdeal.GenP.hostOps1]
    after_results_simp
    rfl
  rw [e, shapeCast_a_a1_apply, deg_at3]

/-- Given that the layer's input is the same array on both sides, the neighbour sums before region 1 are the reference's. -/
theorem agg0_eq (hh : W2 m ρ c (Proc.devRef .tc Cert.KernelIdeal.main_v5) = Cert.ReferenceIdeal.Read.val_main_v8 (F := Ideal) x0 x3 x4) :
    W3 m ρ c (Proc.devRef .tc Cert.KernelIdeal.main_v19) = Cert.ReferenceIdeal.Read.val_main_v18 (F := Ideal) x0 x1 x3 x4 := by
  show StableHlo.after Cert.KernelIdeal.GenP.hostOps1 (W2 m ρ c) (Proc.devRef .tc Cert.KernelIdeal.main_v19) = _
  simp only [Cert.KernelIdeal.GenP.hostOps1]
  after_results_simp
  rw [hh, dst_at2, src_at2]
  unfold Cert.ReferenceIdeal.Read.val_main_v18 Cert.ReferenceIdeal.Read.val_main_v17 Cert.ReferenceIdeal.Read.val_main_v16
    Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_v9 Cert.ReferenceIdeal.Read.val_main_c Cert.ReferenceIdeal.Read.val_main_c_0
    Cert.ReferenceIdeal.Read.val_main_cst
  generalize Cert.ReferenceIdeal.Read.val_main_v8 (F := Ideal) x0 x3 x4 = h
  generalize Cert.ReferenceIdeal.Read.val_main_v3 (F := Ideal) x1 = d
  generalize Cert.ReferenceIdeal.Read.val_main_v1 (F := Ideal) x1 = s
  rfl

theorem h0_at3 : W3 m ρ c (Proc.devRef .tc Cert.KernelIdeal.main_v5) = W2 m ρ c (Proc.devRef .tc Cert.KernelIdeal.main_v5) :=
  W3_of m ρ c Cert.KernelIdeal.main_v5 (by decide)

theorem dst_at4 : W4 m ρ c (Proc.devRef .tc Cert.KernelIdeal.main_v3) = Cert.ReferenceIdeal.Read.val_main_v3 (F := Ideal) x1 :=
  (W4_of_ne m ρ c Cert.KernelIdeal.main_v3 (by decide)).trans <|
  (W3_of m ρ c Cert.KernelIdeal.main_v3 (by decide)).trans (dst_at2 m ρ c)
theorem src_at4 : W4 m ρ c (Proc.devRef .tc Cert.KernelIdeal.main_v1) = Cert.ReferenceIdeal.Read.val_main_v1 (F := Ideal) x1 :=
  (W4_of_ne m ρ c Cert.KernelIdeal.main_v1 (by decide)).trans <|
  (W3_of m ρ c Cert.KernelIdeal.main_v1 (by decide)).trans (src_at2 m ρ c)

theorem ref_deg_again (y1 : (⟨Cert.ReferenceIdeal.S2x800000, .i32⟩ : BufTy).Contents (Elt Ideal)) :
    Cert.ReferenceIdeal.Read.val_main_v50 (F := Ideal) y1 = Cert.ReferenceIdeal.Read.val_main_v22 (F := Ideal) y1 := by
  unfold Cert.ReferenceIdeal.Read.val_main_v50 Cert.ReferenceIdeal.Read.val_main_v49 Cert.ReferenceIdeal.Read.val_main_v48
    Cert.ReferenceIdeal.Read.val_main_v47 Cert.ReferenceIdeal.Read.val_main_cst_8 Cert.ReferenceIdeal.Read.val_main_cst_7
    Cert.ReferenceIdeal.Read.val_main_v22 Cert.ReferenceIdeal.Read.val_main_v21 Cert.ReferenceIdeal.Read.val_main_v20
    Cert.ReferenceIdeal.Read.val_main_v19 Cert.ReferenceIdeal.Read.val_main_cst_2 Cert.ReferenceIdeal.Read.val_main_cst_1
  generalize Cert.ReferenceIdeal.Read.val_main_v3 (F := Ideal) y1 = d
  rfl

theorem deg_at4 : W4 m ρ c (Proc.devRef .tc Cert.KernelIdeal.main_v9) = Cert.ReferenceIdeal.Read.val_main_v22 (F := Ideal) x1 :=
  (W4_of_ne m ρ c Cert.KernelIdeal.main_v9 (by decide)).trans (deg_at3 m ρ c)

theorem deg1_eq (r : Fin 50000) :
    (W5 m ρ c (Proc.devRef .tc Cert.KernelIdeal.main_v33) : Cert.Spec.Arr 50000 1) (ix2 r 0)
      = Cert.ReferenceIdeal.Read.val_main_v50 (F := Ideal) x1 (ix1 r) := by
  have e : (W5 m ρ c (Proc.devRef .tc Cert.KernelIdeal.main_v33) : Cert.Spec.Arr 50000 1)
      = shapeCast ⟨2, ![50000, 1]⟩ (W4 m ρ c (Proc.devRef .tc Cert.KernelIdeal.main_v9) : (⟨1, ![50000]⟩ : Shape).Idx → EReal)
          Cert.KernelIdeal.Gen.shapeCasts_S50000_S50000x1 := by
    show StableHlo.after Cert.KernelIdeal.GenP.hostOps2 (W4 m ρ c) (Proc.devRef .tc Cert.KernelIdeal.main_v33) = _
    simp only [Cert.KernelIdeal.GenP.hostOps2]
    after_results_simp
    rfl
  rw [e, shapeCast_a_a1_apply, deg_at4, ref_deg_again]

theorem bl1_row (q : Fin 128) :
    (W5 m ρ c (Proc.devRef .tc Cert.KernelIdeal.main_v34) : Cert.Spec.Arr 1 128) (ix2 0 q) = x9 (ix1 q) := by
  have e : (W5 m ρ c (Proc.devRef .tc Cert.KernelIdeal.main_v34) : Cert.Spec.Arr 1 128)
      = shapeCast ⟨2, ![1, 128]⟩ (W4 m ρ c (Proc.devRef .tc Cert.KernelIdeal.main_arg9) : (⟨1, ![128]⟩ : Shape).Idx → EReal)
          Cert.KernelIdeal.Gen.shapeCasts_S128_S1x128 := by
    show StableHlo.after Cert.KernelIdeal.GenP.hostOps2 (W4 m ρ c) (Proc.devRef .tc Cert.KernelIdeal.main_v34) = _
    simp only [Cert.KernelIdeal.GenP.hostOps2]
    after_results_simp
    rfl
  have a := W4_args m ρ c Cert.KernelIdeal.main_arg9 (by decide)
  rw [e, shapeCast_a_1a_apply, a]

/-- The same before region 2. -/
theorem agg1_eq (hh : W4 m ρ c (Proc.devRef .tc Cert.KernelIdeal.main_v22)
      = Cert.ReferenceIdeal.Read.val_main_v36 (F := Ideal) x0 x1 x3 x4 x5 x6 x7) :
    W5 m ρ c (Proc.devRef .tc Cert.KernelIdeal.main_v32)
      = Cert.ReferenceIdeal.Read.val_main_v46 (F := Ideal) x0 x1 x3 x4 x5 x6 x7 := by
  show StableHlo.after Cert.KernelIdeal.GenP.hostOps2 (W4 m ρ c) (Proc.devRef .tc Cert.KernelIdeal.main_v32) = _
  simp only [Cert.KernelIdeal.GenP.hostOps2]
  after_results_simp
  rw [hh, dst_at4, src_at4]
  unfold Cert.ReferenceIdeal.Read.val_main_v46 Cert.ReferenceIdeal.Read.val_main_v45 Cert.ReferenceIdeal.Read.val_main_v44
    Cert.ReferenceIdeal.Read.val_main_v43 Cert.ReferenceIdeal.Read.val_main_v42 Cert.ReferenceIdeal.Read.val_main_v41
    Cert.ReferenceIdeal.Read.val_main_v40 Cert.ReferenceIdeal.Read.val_main_v39 Cert.ReferenceIdeal.Read.val_main_v38
    Cert.ReferenceIdeal.Read.val_main_v37 Cert.ReferenceIdeal.Read.val_main_c_4 Cert.ReferenceIdeal.Read.val_main_c_5
    Cert.ReferenceIdeal.Read.val_main_cst_6
  generalize Cert.ReferenceIdeal.Read.val_main_v36 (F := Ideal) x0 x1 x3 x4 x5 x6 x7 = h
  generalize Cert.ReferenceIdeal.Read.val_main_v3 (F := Ideal) x1 = d
  generalize Cert.ReferenceIdeal.Read.val_main_v1 (F := Ideal) x1 = s
  rfl

theorem h1_at5 : W5 m ρ c (Proc.devRef .tc Cert.KernelIdeal.main_v22) = W4 m ρ c (Proc.devRef .tc Cert.KernelIdeal.main_v22) :=
  W5_of m ρ c Cert.KernelIdeal.main_v22 (by decide)

end Cert.Bridge

end
-- ==== Proof.BridgeSoft.lean ====
import proofs.«416290_j3246995276182_1_alg».proof.Proof.BridgeAgg
import proofs.«416290_j3246995276182_1_alg».proof.Proof.Gen.ReferenceIdeal.Read
import proofs.«416290_j3246995276182_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.Bridge

open Idealize.ShloMosaic Idealize.ShloMosaic.ValueIdx Idealize.ShloMosaic.TcCoe Idealize.SL.Sem Idealize.ShloMosaic.StableHlo
open Cert.KernelIdeal.Hand Cert.KernelIdeal.GenP

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

set_option quotPrecheck false
local notation "x0" => m ((c.tc : Thread Cert.KernelIdeal.nD Cert.KernelIdeal.τ).loc Cert.KernelIdeal.main_arg0)
local notation "x1" => m ((c.tc : Thread Cert.KernelIdeal.nD Cert.KernelIdeal.τ).loc Cert.KernelIdeal.main_arg1)
local notation "x2" => m ((c.tc : Thread Cert.KernelIdeal.nD Cert.KernelIdeal.τ).loc Cert.KernelIdeal.main_arg2)
local notation "x3" => m ((c.tc : Thread Cert.KernelIdeal.nD Cert.KernelIdeal.τ).loc Cert.KernelIdeal.main_arg3)
local notation "x4" => m ((c.tc : Thread Cert.KernelIdeal.nD Cert.KernelIdeal.τ).loc Cert.KernelIdeal.main_arg4)
local notation "x5" => m ((c.tc : Thread Cert.KernelIdeal.nD Cert.KernelIdeal.τ).loc Cert.KernelIdeal.main_arg5)
local notation "x6" => m ((c.tc : Thread Cert.KernelIdeal.nD Cert.KernelIdeal.τ).loc Cert.KernelIdeal.main_arg6)
local notation "x7" => m ((c.tc : Thread Cert.KernelIdeal.nD Cert.KernelIdeal.τ).loc Cert.KernelIdeal.main_arg7)
local notation "x8" => m ((c.tc : Thread Cert.KernelIdeal.nD Cert.KernelIdeal.τ).loc Cert.KernelIdeal.main_arg8)
local notation "x9" => m ((c.tc : Thread Cert.KernelIdeal.nD Cert.KernelIdeal.τ).loc Cert.KernelIdeal.main_arg9)
local notation "x10" => m ((c.tc : Thread Cert.KernelIdeal.nD Cert.KernelIdeal.τ).loc Cert.KernelIdeal.main_arg10)
local notation "x11" => m ((c.tc : Thread Cert.KernelIdeal.nD Cert.KernelIdeal.τ).loc Cert.KernelIdeal.main_arg11)
local notation "x12" => m ((c.tc : Thread Cert.KernelIdeal.nD Cert.KernelIdeal.τ).loc Cert.KernelIdeal.main_arg12)
local notation "x13" => m ((c.tc : Thread Cert.KernelIdeal.nD Cert.KernelIdeal.τ).loc Cert.KernelIdeal.main_arg13)
local notation "x14" => m ((c.tc : Thread Cert.KernelIdeal.nD Cert.KernelIdeal.τ).loc Cert.KernelIdeal.main_arg14)

theorem h2_at7 : W7 m ρ c (Proc.devRef .tc Cert.KernelIdeal.main_v35) = W6 m ρ c (Proc.devRef .tc Cert.KernelIdeal.main_v35) :=
  W7_of m ρ c Cert.KernelIdeal.main_v35 (by decide)

theorem b_row (q : Fin 128) :
    W1 m ρ c (Proc.devRef .tc Cert.KernelIdeal.main_v4) (ix2 0 q) = x4 (ix1 q) := by
  show (StableHlo.after hostOps0 (W0 m ρ c) (Proc.devRef .tc Cert.KernelIdeal.main_v4) : Cert.Spec.Arr 1 128) (ix2 0 q) = _
  simp only [hostOps0]
  after_results
  exact shapeCast_a_1a_apply (x4) _ 0 q

theorem batch_col (r : Fin 50000) :
    W7 m ρ c (Proc.devRef .tc Cert.KernelIdeal.main_v52) (ix2 r 0) = x2 (ix1 r) := by
  show (StableHlo.after hostOps3 (W6 m ρ c) (Proc.devRef .tc Cert.KernelIdeal.main_v52) : (⟨2, ![50000, 1]⟩ : Shape).Idx → BitVec 32) (ix2 r 0) = _
  simp only [hostOps3]
  after_results
  rw [W6_args m ρ c Cert.KernelIdeal.main_arg2 (by decide)]
  exact shapeCast_a_a1_apply (x2) _ r 0

theorem bout_row (q : Fin 64) :
    W7 m ρ c (Proc.devRef .tc Cert.KernelIdeal.main_v53) (ix2 0 q) = x14 (ix1 q) := by
  show (StableHlo.after hostOps3 (W6 m ρ c) (Proc.devRef .tc Cert.KernelIdeal.main_v53) : Cert.Spec.Arr 1 64) (ix2 0 q) = _
  simp only [hostOps3]
  after_results
  rw [W6_args m ρ c Cert.KernelIdeal.main_arg14 (by decide)]
  exact shapeCast_a_1a_apply (x14) _ 0 q

theorem dot_score_eq :
    Cert.KernelIdeal.dot_S50000x128_S128x1_S50000x1_1_0_0_1_n_n = Cert.ReferenceIdeal.dot_S50000x128_S128x1_S50000x1_1_0_0_1_n_n := rfl

/-- Both programs apply the same tree of operations (scores, maximum, shifted exponentials, sum, quotient) to h2: the attention weights agree. -/
theorem weights_eq
    (hh : W6 m ρ c (Proc.devRef .tc Cert.KernelIdeal.main_v35) = Cert.ReferenceIdeal.Read.val_main_v64 (F := Ideal) x0 x1 x3 x4 x5 x6 x7 x8 x9 x10) :
    W7 m ρ c (Proc.devRef .tc Cert.KernelIdeal.main_v51) = Cert.ReferenceIdeal.Read.val_main_v80 (F := Ideal) x0 x1 x3 x4 x5 x6 x7 x8 x9 x10 x11 x12 := by
  show StableHlo.after hostOps3 (W6 m ρ c) (Proc.devRef .tc Cert.KernelIdeal.main_v51) = _
  simp only [hostOps3]
  after_results_simp
  rw [hh, W6_args m ρ c Cert.KernelIdeal.main_arg11 (by decide), W6_args m ρ c Cert.KernelIdeal.main_arg12 (by decide)]
  unfold Cert.ReferenceIdeal.Read.val_main_v80 Cert.ReferenceIdeal.Read.val_main_v79 Cert.ReferenceIdeal.Read.val_main_v78
    Cert.ReferenceIdeal.Read.val_main_v77 Cert.ReferenceIdeal.Read.val_main_v76 Cert.ReferenceIdeal.Read.val_main_v75
    Cert.ReferenceIdeal.Read.val_main_v74 Cert.ReferenceIdeal.Read.val_main_v73 Cert.ReferenceIdeal.Read.val_main_v72
    Cert.ReferenceIdeal.Read.val_main_v71 Cert.ReferenceIdeal.Read.val_main_v70 Cert.ReferenceIdeal.Read.val_main_v69
    Cert.ReferenceIdeal.Read.val_main_v68 Cert.ReferenceIdeal.Read.val_main_v67 Cert.ReferenceIdeal.Read.val_main_v66
    Cert.ReferenceIdeal.Read.val_main_v65 Cert.ReferenceIdeal.Read.val_main_cst_10 Cert.ReferenceIdeal.Read.val_main_cst_11
    Cert.ReferenceIdeal.Read.val_main_cst_12
  generalize Cert.ReferenceIdeal.Read.val_main_v64 (F := Ideal) x0 x1 x3 x4 x5 x6 x7 x8 x9 x10 = h
  rw [dot_score_eq]

end Cert.Bridge

end
-- ==== Proof.BridgeMain.lean ====
import proofs.«416290_j3246995276182_1_alg».proof.Proof.KernelIdealRun
import proofs.«416290_j3246995276182_1_alg».proof.Proof.KernelIdealVal0
import proofs.«416290_j3246995276182_1_alg».proof.Proof.KernelIdealVal1
import proofs.«416290_j3246995276182_1_alg».proof.Proof.KernelIdealVal2
import proofs.«416290_j3246995276182_1_alg».proof.Proof.KernelIdealVal3
import proofs.«416290_j3246995276182_1_alg».proof.Proof.RefLayers
import proofs.«416290_j3246995276182_1_alg».proof.Proof.RefPool
import proofs.«416290_j3246995276182_1_alg».proof.Proof.BridgeAgg
import proofs.«416290_j3246995276182_1_alg».proof.Proof.BridgeSoft

noncomputable section

namespace Cert.Bridge

open Cert.KernelIdeal.Hand Cert.ReferenceIdeal.RefValue
open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

set_option quotPrecheck false
local notation "x0" => m ((c : Thread Cert.KernelIdeal.nD Cert.KernelIdeal.τ).loc Cert.KernelIdeal.main_arg0)
local notation "x1" => m ((c : Thread Cert.KernelIdeal.nD Cert.KernelIdeal.τ).loc Cert.KernelIdeal.main_arg1)
local notation "x2" => m ((c : Thread Cert.KernelIdeal.nD Cert.KernelIdeal.τ).loc Cert.KernelIdeal.main_arg2)
local notation "x3" => m ((c : Thread Cert.KernelIdeal.nD Cert.KernelIdeal.τ).loc Cert.KernelIdeal.main_arg3)
local notation "x4" => m ((c : Thread Cert.KernelIdeal.nD Cert.KernelIdeal.τ).loc Cert.KernelIdeal.main_arg4)
local notation "x5" => m ((c : Thread Cert.KernelIdeal.nD Cert.KernelIdeal.τ).loc Cert.KernelIdeal.main_arg5)
local notation "x6" => m ((c : Thread Cert.KernelIdeal.nD Cert.KernelIdeal.τ).loc Cert.KernelIdeal.main_arg6)
local notation "x7" => m ((c : Thread Cert.KernelIdeal.nD Cert.KernelIdeal.τ).loc Cert.KernelIdeal.main_arg7)
local notation "x8" => m ((c : Thread Cert.KernelIdeal.nD Cert.KernelIdeal.τ).loc Cert.KernelIdeal.main_arg8)
local notation "x9" => m ((c : Thread Cert.KernelIdeal.nD Cert.KernelIdeal.τ).loc Cert.KernelIdeal.main_arg9)
local notation "x10" => m ((c : Thread Cert.KernelIdeal.nD Cert.KernelIdeal.τ).loc Cert.KernelIdeal.main_arg10)
local notation "x11" => m ((c : Thread Cert.KernelIdeal.nD Cert.KernelIdeal.τ).loc Cert.KernelIdeal.main_arg11)
local notation "x12" => m ((c : Thread Cert.KernelIdeal.nD Cert.KernelIdeal.τ).loc Cert.KernelIdeal.main_arg12)
local notation "x13" => m ((c : Thread Cert.KernelIdeal.nD Cert.KernelIdeal.τ).loc Cert.KernelIdeal.main_arg13)
local notation "x14" => m ((c : Thread Cert.KernelIdeal.nD Cert.KernelIdeal.τ).loc Cert.KernelIdeal.main_arg14)

/-- Region 0's output array is the reference's embedding stage. -/
theorem h0_eq : W2 m ρ c (Proc.devRef .tc Cert.KernelIdeal.main_v5) = Cert.ReferenceIdeal.Read.val_main_v8 (F := Ideal) x0 x3 x4 := by
  refine ((W2_arr m ρ c 3).trans (final0 (Vw1 m ρ) c)).trans ?_
  rw [ref_embed x0 x3 x4 (W1 m ρ c (Proc.devRef .tc Cert.KernelIdeal.main_v4)) (b_row m ρ c)]
  show Cert.Spec.embed (W1 m ρ c (Proc.devRef .tc Cert.KernelIdeal.main_arg0)) (W1 m ρ c (Proc.devRef .tc Cert.KernelIdeal.main_arg3)) (W1 m ρ c (Proc.devRef .tc Cert.KernelIdeal.main_v4)) = _
  rw [W1_args m ρ c Cert.KernelIdeal.main_arg0 (by decide), W1_args m ρ c Cert.KernelIdeal.main_arg3 (by decide)]

/-- Region 1's output array is the reference's first rectified convolution. -/
theorem h1_eq : W4 m ρ c (Proc.devRef .tc Cert.KernelIdeal.main_v22) = Cert.ReferenceIdeal.Read.val_main_v36 (F := Ideal) x0 x1 x3 x4 x5 x6 x7 := by
  refine ((W4_arr m ρ c 6).trans (final1 (Vw3 m ρ) c)).trans ?_
  rw [ref_sage0 x0 x1 x3 x4 x5 x6 x7 (W3 m ρ c (Proc.devRef .tc Cert.KernelIdeal.main_v20)) (W3 m ρ c (Proc.devRef .tc Cert.KernelIdeal.main_v21)) (deg0_eq m ρ c) (bl0_row m ρ c)]
  show Cert.Spec.sage (W3 m ρ c (Proc.devRef .tc Cert.KernelIdeal.main_v19)) (W3 m ρ c (Proc.devRef .tc Cert.KernelIdeal.main_v20)) (W3 m ρ c (Proc.devRef .tc Cert.KernelIdeal.main_v5))
    (W3 m ρ c (Proc.devRef .tc Cert.KernelIdeal.main_arg5)) (W3 m ρ c (Proc.devRef .tc Cert.KernelIdeal.main_v21)) (W3 m ρ c (Proc.devRef .tc Cert.KernelIdeal.main_arg7)) = _
  rw [agg0_eq m ρ c (h0_eq m ρ c), h0_at3, h0_eq, W3_args m ρ c Cert.KernelIdeal.main_arg5 (by decide), W3_args m ρ c Cert.KernelIdeal.main_arg7 (by decide)]

/-- Region 2's output array is the reference's second rectified convolution. -/
theorem h2_eq : W6 m ρ c (Proc.devRef .tc Cert.KernelIdeal.main_v35) = Cert.ReferenceIdeal.Read.val_main_v64 (F := Ideal) x0 x1 x3 x4 x5 x6 x7 x8 x9 x10 := by
  refine ((W6_arr m ρ c 6).trans (final2 (Vw5 m ρ) c)).trans ?_
  rw [ref_sage1 x0 x1 x3 x4 x5 x6 x7 x8 x9 x10 (W5 m ρ c (Proc.devRef .tc Cert.KernelIdeal.main_v33)) (W5 m ρ c (Proc.devRef .tc Cert.KernelIdeal.main_v34)) (deg1_eq m ρ c) (bl1_row m ρ c)]
  show Cert.Spec.sage (W5 m ρ c (Proc.devRef .tc Cert.KernelIdeal.main_v32)) (W5 m ρ c (Proc.devRef .tc Cert.KernelIdeal.main_v33)) (W5 m ρ c (Proc.devRef .tc Cert.KernelIdeal.main_v22))
    (W5 m ρ c (Proc.devRef .tc Cert.KernelIdeal.main_arg8)) (W5 m ρ c (Proc.devRef .tc Cert.KernelIdeal.main_v34)) (W5 m ρ c (Proc.devRef .tc Cert.KernelIdeal.main_arg10)) = _
  rw [agg1_eq m ρ c (h1_eq m ρ c), h1_at5, h1_eq, W5_args m ρ c Cert.KernelIdeal.main_arg8 (by decide), W5_args m ρ c Cert.KernelIdeal.main_arg10 (by decide)]

/-- Region 3's output array is the reference's result. -/
theorem out_eq : W8 m ρ c (Proc.devRef .tc Cert.KernelIdeal.main_v54) = Cert.ReferenceIdeal.Read.val_main_v90 (F := Ideal) x0 x1 x2 x3 x4 x5 x6 x7 x8 x9 x10 x11 x12 x13 x14 := by
  refine ((W8_arr m ρ c 5).trans (final3 (Vw7 m ρ) c)).trans ?_
  rw [ref_pool x0 x1 x2 x3 x4 x5 x6 x7 x8 x9 x10 x11 x12 x13 x14 (W7 m ρ c (Proc.devRef .tc Cert.KernelIdeal.main_v52)) (W7 m ρ c (Proc.devRef .tc Cert.KernelIdeal.main_v53)) (batch_col m ρ c) (bout_row m ρ c)]
  show Cert.Spec.pool (W7 m ρ c (Proc.devRef .tc Cert.KernelIdeal.main_v35)) (W7 m ρ c (Proc.devRef .tc Cert.KernelIdeal.main_v51)) (W7 m ρ c (Proc.devRef .tc Cert.KernelIdeal.main_v52))
    (W7 m ρ c (Proc.devRef .tc Cert.KernelIdeal.main_arg13)) (W7 m ρ c (Proc.devRef .tc Cert.KernelIdeal.main_v53)) = _
  rw [weights_eq m ρ c (h2_eq m ρ c), h2_at7, h2_eq, W7_args m ρ c Cert.KernelIdeal.main_arg13 (by decide)]

end Cert.Bridge

end
-- ==== Proof.lean ====
import proofs.«416290_j3246995276182_1_alg».proof.Defs
import proofs.«416290_j3246995276182_1_alg».proof.Proof.Gen.Kernel
import proofs.«416290_j3246995276182_1_alg».proof.Proof.Gen.KernelIdeal
import proofs.«416290_j3246995276182_1_alg».proof.Proof.Gen.ReferenceIdeal
import proofs.«416290_j3246995276182_1_alg».proof.Proof.Gen.ReferenceIdeal.Run
import proofs.«416290_j3246995276182_1_alg».proof.Proof.Gen.ReferenceIdeal.Read
import proofs.«416290_j3246995276182_1_alg».proof.Proof.Gen.Pre_finite_inputs
import proofs.«416290_j3246995276182_1_alg».proof.Proof.KernelRun
import proofs.«416290_j3246995276182_1_alg».proof.Proof.KernelIdealRun
import proofs.«416290_j3246995276182_1_alg».proof.Proof.BridgeMain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun r h c => have k := (h c).2
    ⟨k _ (by decide), k _ (by decide), k _ (by decide), k _ (by decide), k _ (by decide), k _ (by decide), k _ (by decide), k _ (by decide), k _ (by decide), k _ (by decide), k _ (by decide), k _ (by decide), k _ (by decide), k _ (by decide), k _ (by decide)⟩) (Cert.Kernel.Hand.run_all (F := Bits) m ρ)

theorem frame_ki : Cert.frame_KernelIdeal := fun m ρ _ =>
  (θ_run Cert.KernelIdeal.defs _ _).mono (fun r h c => have k := (h c).2
    ⟨k _ (by decide), k _ (by decide), k _ (by decide), k _ (by decide), k _ (by decide), k _ (by decide), k _ (by decide), k _ (by decide), k _ (by decide), k _ (by decide), k _ (by decide), k _ (by decide), k _ (by decide), k _ (by decide), k _ (by decide)⟩) (Cert.KernelIdeal.Hand.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The kernel program's result array, what its last region leaves, is the reference's result of arguments that agree. -/
theorem algebraic : Cert.algebraic_KernelIdeal_ReferenceIdeal := by
  intro m ρ m' ρ' _ hagree
  refine ⟨fun c => Cert.KernelIdeal.Hand.W8 (F := Ideal) m ρ c (Proc.devRef .tc Cert.KernelIdeal.main_v54), ?_, ?_⟩
  · exact (θ_run Cert.KernelIdeal.defs _ _).mono (fun r h c => have k := (h c).2
      ⟨(h c).1, k _ (by decide), k _ (by decide), k _ (by decide), k _ (by decide), k _ (by decide), k _ (by decide), k _ (by decide), k _ (by decide), k _ (by decide), k _ (by decide), k _ (by decide), k _ (by decide), k _ (by decide), k _ (by decide), k _ (by decide)⟩) (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    rw [Cert.ReferenceIdeal.Read.val_main_v90_eq, a0, a1, a2, a3, a4, a5, a6, a7, a8, a9, a10, a11, a12, a13, a14]
    exact (Cert.Bridge.out_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
